-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S256x10 .f32) (main_arg10 : FVec F S10 .f32) (main_v33 : IVec S_ 1) : IVec S_ 1 :=
  let main_v34 : FVec F S256x10 .f32 := Host.absf main_arg9
  let main_cst_12 : FVec F S_ .f32 := constant S_ .f32 0x7F800000#32
  let main_v35 : FVec F S256x10 .f32 := broadcastInDim S256x10 ![] bcast_S_S256x10 main_cst_12
  let main_v36 : IVec S256x10 1 := cmpf .olt main_v34 main_v35
  let main_c_13 : IVec S_ 1 := constantI S_ 1 1#1
  let main_v37 : IVec S_ 1 := (fun x v => Host.reduce IntOp.andi x v reducesTo_S256x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S4x256x256 .f32) (main_arg7 : FVec F S4x256x256 .f32) (main_arg8 : FVec F S4x256 .f32) (main_arg9 : FVec F S256x10 .f32) (main_arg10 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S4x256x256 .f32 := Host.absf main_arg6
  let main_cst_6 : FVec F S_ .f32 := constant S_ .f32 0x7F800000#32
  let main_v20 : FVec F S4x256x256 .f32 := broadcastInDim S4x256x256 ![] bcast_S_S4x256x256 main_cst_6
  let main_v21 : IVec S4x256x256 1 := cmpf .olt main_v19 main_v20
  let main_c_7 : IVec S_ 1 := constantI S_ 1 1#1
  let main_v22 : IVec S_ 1 := (fun x v => Host.reduce IntOp.andi x v reducesTo_S4x256x256_S_d0_1_2 h_S_) main_v21 main_c_7
  let main_v23 : IVec S_ 1 := andi main_v18 main_v22
  let main_v24 : FVec F S4x256x256 .f32 := Host.absf main_arg7
  let main_cst_8 : FVec F S_ .f32 := constant S_ .f32 0x7F800000#32
  let main_v25 : FVec F S4x256x256 .f32 := broadcastInDim S4x256x256 ![] bcast_S_S4x256x256 main_cst_8
  let main_v26 : IVec S4x256x256 1 := cmpf .olt main_v24 main_v25
  let main_c_9 : IVec S_ 1 := constantI S_ 1 1#1
  let main_v27 : IVec S_ 1 := (fun x v => Host.reduce IntOp.andi x v reducesTo_S4x256x256_S_d0_1_2 h_S_) main_v26 main_c_9
  let main_v28 : IVec S_ 1 := andi main_v23 main_v27
  let main_v29 : FVec F S4x256 .f32 := Host.absf main_arg8
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x256 .f32) (main_arg4 : FVec F S128x256 .f32) (main_arg5 : FVec F S256 .f32) (main_arg6 : FVec F S4x256x256 .f32) (main_arg7 : FVec F S4x256x256 .f32) (main_arg8 : FVec F S4x256 .f32) (main_arg9 : FVec F S256x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S1x256 : Shape := ⟨2, ![1, 256]⟩
abbrev S800000x256 : Shape := ⟨2, ![800000, 256]⟩
abbrev S1x256x256 : Shape := ⟨3, ![1, 256, 256]⟩
abbrev S256x256 : Shape := ⟨2, ![256, 256]⟩
abbrev S128x10 : Shape := ⟨2, ![128, 10]⟩
abbrev S128x1 : Shape := ⟨2, ![128, 1]⟩
abbrev S1x128 : Shape := ⟨2, ![1, 128]⟩
abbrev S1x10 : Shape := ⟨2, ![1, 10]⟩
abbrev S128 : Shape := ⟨1, ![128]⟩

abbrev nBuf : Space → Nat
  | .hbm => 127
  | .vmem => 60
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S128x256, .f32⟩
  | .hbm, ⟨5, _⟩ => ⟨S256, .f32⟩
  | .hbm, ⟨6, _⟩ => ⟨S4x256x256, .f32⟩
  | .hbm, ⟨7, _⟩ => ⟨S4x256x256, .f32⟩
  | .hbm, ⟨8, _⟩ => ⟨S4x256, .f32⟩
  | .hbm, ⟨9, _⟩ => ⟨S256x10, .f32⟩
  | .hbm, ⟨10, _⟩ => ⟨S10, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x256, .bf16⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .bf16⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S1x256x256, .f32⟩
  | .hbm, ⟨57, _⟩ => ⟨S256x256, .f32⟩
  | .hbm, ⟨58, _⟩ => ⟨S1x256, .f32⟩
  | .hbm, ⟨59, _⟩ => ⟨S256, .f32⟩
  | .hbm, ⟨60, _⟩ => ⟨S1x256x256, .f32⟩
  | .hbm, ⟨61, _⟩ => ⟨S256x256, .f32⟩
  | .hbm, ⟨62, _⟩ => ⟨S50000x256, .bf16⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x256, .bf16⟩
  | .hbm, ⟨72, _⟩ => ⟨S800000x256, .f32⟩
  | .hbm, ⟨73, _⟩ => ⟨S_, .f32⟩
  | .hbm, ⟨74, _⟩ => ⟨S50000x256, .f32⟩
  | .hbm, ⟨75, _⟩ => ⟨S800000x1, .i32⟩
  | .hbm, ⟨76, _⟩ => ⟨S50000x256, .f32⟩
  | .hbm, ⟨77, _⟩ => ⟨S1x256x256, .f32⟩
  | .hbm, ⟨78, _⟩ => ⟨S256x256, .f32⟩
  | .hbm, ⟨79, _⟩ => ⟨S1x256, .f32⟩
  | .hbm, ⟨80, _⟩ => ⟨S256, .f32⟩
  | .hbm, ⟨81, _⟩ => ⟨S1x256x256, .f32⟩
  | .hbm, ⟨82, _⟩ => ⟨S256x256, .f32⟩
  | .hbm, ⟨83, _⟩ => ⟨S50000x256, .bf16⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x256, .bf16⟩
  | .hbm, ⟨93, _⟩ => ⟨S800000x256, .f32⟩
  | .hbm, ⟨94, _⟩ => ⟨S_, .f32⟩
  | .hbm, ⟨95, _⟩ => ⟨S50000x256, .f32⟩
  | .hbm, ⟨96, _⟩ => ⟨S800000x1, .i32⟩
  | .hbm, ⟨97, _⟩ => ⟨S50000x256, .f32⟩
  | .hbm, ⟨98, _⟩ => ⟨S1x256x256, .f32⟩
  | .hbm, ⟨99, _⟩ => ⟨S256x256, .f32⟩
  | .hbm, ⟨100, _⟩ => ⟨S1x256, .f32⟩
  | .hbm, ⟨101, _⟩ => ⟨S256, .f32⟩
  | .hbm, ⟨102, _⟩ => ⟨S1x256x256, .f32⟩
  | .hbm, ⟨103, _⟩ => ⟨S256x256, .f32⟩
  | .hbm, ⟨104, _⟩ => ⟨S50000x256, .bf16⟩
  | .hbm, ⟨105, _⟩ => ⟨S_, .i32⟩
  | .hbm, ⟨106, _⟩ => ⟨S800000, .i32⟩
  | .hbm, ⟨107, _⟩ => ⟨S800000, .i1⟩
  | .hbm, ⟨108, _⟩ => ⟨S_, .i32⟩
  | .hbm, ⟨109, _⟩ => ⟨S800000, .i32⟩
  | .hbm, ⟨110, _⟩ => ⟨S800000, .i32⟩
  | .hbm, ⟨111, _⟩ => ⟨S800000, .i32⟩
  | .hbm, ⟨112, _⟩ => ⟨S800000x1, .i32⟩
  | .hbm, ⟨113, _⟩ => ⟨S800000x256, .bf16⟩
  | .hbm, ⟨114, _⟩ => ⟨S800000x256, .f32⟩
  | .hbm, ⟨115, _⟩ => ⟨S_, .f32⟩
  | .hbm, ⟨116, _⟩ => ⟨S50000x256, .f32⟩
  | .hbm, ⟨117, _⟩ => ⟨S800000x1, .i32⟩
  | .hbm, ⟨118, _⟩ => ⟨S50000x256, .f32⟩
  | .hbm, ⟨119, _⟩ => ⟨S50000x1, .i32⟩
  | .hbm, ⟨120, _⟩ => ⟨S1x256x256, .f32⟩
  | .hbm, ⟨121, _⟩ => ⟨S256x256, .f32⟩
  | .hbm, ⟨122, _⟩ => ⟨S1x256, .f32⟩
  | .hbm, ⟨123, _⟩ => ⟨S256, .f32⟩
  | .hbm, ⟨124, _⟩ => ⟨S1x256x256, .f32⟩
  | .hbm, ⟨125, _⟩ => ⟨S256x256, .f32⟩
  | .hbm, ⟨126, _⟩ => ⟨S128x10, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .f32⟩
  | .local _ .vmem, ⟨7, _⟩ => ⟨S256, .f32⟩
  | .local _ .vmem, ⟨8, _⟩ => ⟨S128x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .bf16⟩
  | .local _ .vmem, ⟨16, _⟩ => ⟨S2000x256, .bf16⟩
  | .local _ .vmem, ⟨17, _⟩ => ⟨S256x256, .f32⟩
  | .local _ .vmem, ⟨18, _⟩ => ⟨S256, .f32⟩
  | .local _ .vmem, ⟨19, _⟩ => ⟨S256x256, .f32⟩
  | .local _ .vmem, ⟨20, _⟩ => ⟨S2000x256, .bf16⟩
  | .local _ .vmem, ⟨21, _⟩ => ⟨S2000x256, .bf16⟩
  | .local _ .vmem, ⟨22, _⟩ => ⟨S2000x256, .f32⟩
  | .local _ .vmem, ⟨23, _⟩ => ⟨S2000x256, .f32⟩
  | .local _ .vmem, ⟨24, _⟩ => ⟨S2000x1, .f32⟩
  | .local _ .vmem, ⟨25, _⟩ => ⟨S2000x1, .f32⟩
  | .local _ .vmem, ⟨26, _⟩ => ⟨S2000x256, .bf16⟩
  | .local _ .vmem, ⟨27, _⟩ => ⟨S2000x256, .bf16⟩
  | .local _ .vmem, ⟨28, _⟩ => ⟨S256x256, .f32⟩
  | .local _ .vmem, ⟨29, _⟩ => ⟨S256, .f32⟩
  | .local _ .vmem, ⟨30, _⟩ => ⟨S256x256, .f32⟩
  | .local _ .vmem, ⟨31, _⟩ => ⟨S2000x256, .bf16⟩
  | .local _ .vmem, ⟨32, _⟩ => ⟨S2000x256, .bf16⟩
  | .local _ .vmem, ⟨33, _⟩ => ⟨S2000x256, .f32⟩
  | .local _ .vmem, ⟨34, _⟩ => ⟨S2000x256, .f32⟩
  | .local _ .vmem, ⟨35, _⟩ => ⟨S2000x1, .f32⟩
  | .local _ .vmem, ⟨36, _⟩ => ⟨S2000x1, .f32⟩
  | .local _ .vmem, ⟨37, _⟩ => ⟨S2000x256, .bf16⟩
  | .local _ .vmem, ⟨38, _⟩ => ⟨S2000x256, .bf16⟩
  | .local _ .vmem, ⟨39, _⟩ => ⟨S256x256, .f32⟩
  | .local _ .vmem, ⟨40, _⟩ => ⟨S256, .f32⟩
  | .local _ .vmem, ⟨41, _⟩ => ⟨S256x256, .f32⟩
  | .local _ .vmem, ⟨42, _⟩ => ⟨S2000x256, .bf16⟩
  | .local _ .vmem, ⟨43, _⟩ => ⟨S2000x256, .bf16⟩
  | .local _ .vmem, ⟨44, _⟩ => ⟨S2000x256, .f32⟩
  | .local _ .vmem, ⟨45, _⟩ => ⟨S2000x256, .f32⟩
  | .local _ .vmem, ⟨46, _⟩ => ⟨S2000x1, .f32⟩
  | .local _ .vmem, ⟨47, _⟩ => ⟨S2000x1, .f32⟩
  | .local _ .vmem, ⟨48, _⟩ => ⟨S2000x256, .bf16⟩
  | .local _ .vmem, ⟨49, _⟩ => ⟨S2000x256, .bf16⟩
  | .local _ .vmem, ⟨50, _⟩ => ⟨S256x256, .f32⟩
  | .local _ .vmem, ⟨51, _⟩ => ⟨S256, .f32⟩
  | .local _ .vmem, ⟨52, _⟩ => ⟨S256x256, .f32⟩
  | .local _ .vmem, ⟨53, _⟩ => ⟨S2000x1, .i32⟩
  | .local _ .vmem, ⟨54, _⟩ => ⟨S2000x1, .i32⟩
  | .local _ .vmem, ⟨55, _⟩ => ⟨S256x10, .f32⟩
  | .local _ .vmem, ⟨56, _⟩ => ⟨S10, .f32⟩
  | .local _ .vmem, ⟨57, _⟩ => ⟨S128x10, .f32⟩
  | .local _ .vmem, ⟨58, _⟩ => ⟨S128x256, .f32⟩
  | .local _ .vmem, ⟨59, _⟩ => ⟨S128x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_14 : Ref sig .tc := ⟨.hbm, 105, rfl⟩
abbrev main_v78 : Ref sig .tc := ⟨.hbm, 106, rfl⟩
abbrev main_v79 : Ref sig .tc := ⟨.hbm, 107, rfl⟩
abbrev main_c_15 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_16 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc4_stg7_0 : Ref sig .tc := ⟨.vmem, 55, rfl⟩
abbrev cc4_stg8_0 : Ref sig .tc := ⟨.vmem, 56, rfl⟩
abbrev cc4_stg9_0 : Ref sig .tc := ⟨.vmem, 57, rfl⟩
abbrev cc4_scratch0 : Ref sig .tc := ⟨.vmem, 58, rfl⟩
abbrev cc4_scratch1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54
abbrev cc4_sem7_0 : DmaSem sig := 55
abbrev cc4_sem8_0 : DmaSem sig := 56
abbrev cc4_sem9_0 : DmaSem sig := 57

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v52 : BitVec 1 := Scalar.cmpi .eq arg0 c24_i32
  let v53 : BitVec 32 := Scalar.extui v52
  let c0_i32_26 : BitVec 32 := 0#32
  let v54 : BitVec 1 := Scalar.cmpi .ne v53 c0_i32_26
  v54

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x1 .i32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S256x10 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S10 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128x10 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S256 : S256.ShapeCasts S256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  shapeCasts_S128x256_S128x256 : S128x256.ShapeCasts S128x256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S1x128_d1_w32 : S1x128.Iotas .tc 32 [1]
  broadcasts_S1x128_S2000x128 : S1x128.Broadcasts S2000x128
  natLt_1_32 : 1 < 32
  broadcasts_S128x1_S128x256 : S128x1.Broadcasts S128x256
  inb_S256x10_S256x10_0_0 : ∀ a, (![0, 0] : Fin 2 → Nat) a + S256x10.size a ≤ S256x10.size a
  h_S256x10 : 0 < S256x10.numel
  inb_S10_S10_0 : ∀ a, (![0] : Fin 1 → Nat) a + S10.size a ≤ S10.size a
  h_S10 : 0 < S10.numel
  shapeCasts_S10_S1x10 : S10.ShapeCasts S1x10
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  inb_S128x10_S128x10_0_0 : ∀ a, (![0, 0] : Fin 2 → Nat) a + S128x10.size a ≤ S128x10.size a
  h_S128x10 : 0 < S128x10.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x128_S2000x256_S128x256_0_0_1_1_n_n_wf : DotDims.WF S2000x128 S2000x256 S128x256 [0] [0] [1] [1] [] []
  dot_S2000x128_S2000x1_S128x1_0_0_1_1_n_n_wf : DotDims.WF S2000x128 S2000x1 S128x1 [0] [0] [1] [1] [] []
  dot_S128x256_S256x10_S128x10_1_0_0_1_n_n_wf : DotDims.WF S128x256 S256x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .bf16 = 32 ∨ (Rect.block (s := S50000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .bf16 = 32 ∨ (Rect.block (s := S50000x256) S2000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .bf16 = 32 ∨ (Rect.block (s := S50000x256) S2000x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .bf16 = 32 ∨ (Rect.block (s := S50000x256) S2000x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .bf16 = 32 ∨ (Rect.block (s := S50000x256) S2000x256.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .bf16 = 32 ∨ (Rect.block (s := S50000x256) S2000x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .bf16 = 32 ∨ (Rect.block (s := S50000x256) S2000x256.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .bf16 = 32 ∨ (Rect.block (s := S50000x256) S2000x256.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256.size a ≤ S256.size a
  hwx4_4 : ∀ i : grid4.Coords, EltTy.bits .f32 = 32 ∨ (Rect.block (s := S256) S256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x1.size a ≤ S50000x1.size a
  hwx4_6 : ∀ i : grid4.Coords, EltTy.bits .i32 = 32 ∨ (Rect.block (s := S50000x1) S2000x1.size (cc4_transform_6 i) (hinb4_6 i)).WholeWords (EltTy.packing .i32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x10.size a ≤ S256x10.size a
  hwx4_7 : ∀ i : grid4.Coords, EltTy.bits .f32 = 32 ∨ (Rect.block (s := S256x10) S256x10.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S10.size a ≤ S10.size a
  hwx4_8 : ∀ i : grid4.Coords, EltTy.bits .f32 = 32 ∨ (Rect.block (s := S10) S10.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x10.size a ≤ S128x10.size a
  hwx4_9 : ∀ i : grid4.Coords, EltTy.bits .f32 = 32 ∨ (Rect.block (s := S128x10) S128x10.size (cc4_transform_9 i) (hinb4_9 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x128_S2000x256_S128x256_0_0_1_1_n_n : DotDims S2000x128 S2000x256 S128x256 where
  lhsContracting := [0]
  rhsContracting := [0]
  lhsNonContracting := [1]
  rhsNonContracting := [1]
  lhsBatch := []
  rhsBatch := []
  wf := dot_S2000x128_S2000x256_S128x256_0_0_1_1_n_n_wf
def dot_S2000x128_S2000x1_S128x1_0_0_1_1_n_n : DotDims S2000x128 S2000x1 S128x1 where
  lhsContracting := [0]
  rhsContracting := [0]
  lhsNonContracting := [1]
  rhsNonContracting := [1]
  lhsBatch := []
  rhsBatch := []
  wf := dot_S2000x128_S2000x1_S128x1_0_0_1_1_n_n_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v70) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v77) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v88) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v77) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v91) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93) S256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v95) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v89) S2000x1.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_arg9) S256x10.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg10) S10.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v96) S128x10.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev idle4 : Fin 10 → grid4.Coords → Bool := fun | 0 => fun _ => false | 1 => fun _ => false | 2 => fun _ => false | 3 => fun _ => false | 4 => fun _ => false | 5 => fun _ => false | 6 => fun _ => false | 7 => fun _ => false | 8 => fun _ => false | 9 => fun i => !(k4_cond2 i == 1#1) | ⟨_ + 10, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S1x256 : Shape := ⟨2, ![1, 256]⟩
abbrev S1x256x256 : Shape := ⟨3, ![1, 256, 256]⟩
abbrev S256x256 : Shape := ⟨2, ![256, 256]⟩
abbrev S800000x256 : Shape := ⟨2, ![800000, 256]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 244
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S128x256, .f32⟩
  | 5 => ⟨S256, .f32⟩
  | 6 => ⟨S4x256x256, .f32⟩
  | 7 => ⟨S4x256x256, .f32⟩
  | 8 => ⟨S4x256, .f32⟩
  | 9 => ⟨S256x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x128, .f32⟩
  | 39 => ⟨S50000x128, .f32⟩
  | 40 => ⟨S50000x256, .f32⟩
  | 41 => ⟨S1x256, .f32⟩
  | 42 => ⟨S50000x256, .f32⟩
  | 43 => ⟨S50000x256, .f32⟩
  | 44 => ⟨S50000x256, .f32⟩
  | 45 => ⟨S50000x256, .f32⟩
  | 46 => ⟨S_, .f32⟩
  | 47 => ⟨S50000x256, .f32⟩
  | 48 => ⟨S50000x256, .f32⟩
  | 49 => ⟨S1x256x256, .f32⟩
  | 50 => ⟨S256x256, .f32⟩
  | 51 => ⟨S1x256, .f32⟩
  | 52 => ⟨S256, .f32⟩
  | 53 => ⟨S1x256x256, .f32⟩
  | 54 => ⟨S256x256, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x256, .f32⟩
  | 64 => ⟨S_, .f32⟩
  | 65 => ⟨S50000x256, .f32⟩
  | 66 => ⟨S800000x1, .i32⟩
  | 67 => ⟨S50000x256, .f32⟩
  | 68 => ⟨S_, .f32⟩
  | 69 => ⟨S800000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S50000, .f32⟩
  | 76 => ⟨S50000, .f32⟩
  | 77 => ⟨S50000x1, .f32⟩
  | 78 => ⟨S50000x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S1x256x256, .f32⟩
  | 90 => ⟨S256x256, .f32⟩
  | 91 => ⟨S1x256, .f32⟩
  | 92 => ⟨S256, .f32⟩
  | 93 => ⟨S1x256x256, .f32⟩
  | 94 => ⟨S256x256, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x256, .f32⟩
  | 104 => ⟨S_, .f32⟩
  | 105 => ⟨S50000x256, .f32⟩
  | 106 => ⟨S800000x1, .i32⟩
  | 107 => ⟨S50000x256, .f32⟩
  | 108 => ⟨S_, .f32⟩
  | 109 => ⟨S800000, .f32⟩
  | 110 => ⟨S_, .f32⟩
  | 111 => ⟨S50000, .f32⟩
  | 112 => ⟨S800000x1, .i32⟩
  | 113 => ⟨S50000, .f32⟩
  | 114 => ⟨S_, .f32⟩
  | 115 => ⟨S50000, .f32⟩
  | 116 => ⟨S50000, .f32⟩
  | 117 => ⟨S50000x1, .f32⟩
  | 118 => ⟨S50000x256, .f32⟩
  | 119 => ⟨S50000x256, .f32⟩
  | 120 => ⟨S50000x256, .f32⟩
  | 121 => ⟨S1x256, .f32⟩
  | 122 => ⟨S50000x256, .f32⟩
  | 123 => ⟨S50000x256, .f32⟩
  | 124 => ⟨S50000x256, .f32⟩
  | 125 => ⟨S50000x256, .f32⟩
  | 126 => ⟨S_, .f32⟩
  | 127 => ⟨S50000x256, .f32⟩
  | _ => ⟨S50000x128, .f32⟩

abbrev hbmTy0_1 (i : Nat) : BufTy := match i % 128 with
  | 0 => ⟨S50000x256, .f32⟩
  | 1 => ⟨S1x256x256, .f32⟩
  | 2 => ⟨S256x256, .f32⟩
  | 3 => ⟨S1x256, .f32⟩
  | 4 => ⟨S256, .f32⟩
  | 5 => ⟨S1x256x256, .f32⟩
  | 6 => ⟨S256x256, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x256, .f32⟩
  | 16 => ⟨S_, .f32⟩
  | 17 => ⟨S50000x256, .f32⟩
  | 18 => ⟨S800000x1, .i32⟩
  | 19 => ⟨S50000x256, .f32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S50000x1, .f32⟩
  | 30 => ⟨S50000x256, .f32⟩
  | 31 => ⟨S50000x256, .f32⟩
  | 32 => ⟨S50000x256, .f32⟩
  | 33 => ⟨S1x256, .f32⟩
  | 34 => ⟨S50000x256, .f32⟩
  | 35 => ⟨S50000x256, .f32⟩
  | 36 => ⟨S50000x256, .f32⟩
  | 37 => ⟨S50000x256, .f32⟩
  | 38 => ⟨S_, .f32⟩
  | 39 => ⟨S50000x256, .f32⟩
  | 40 => ⟨S50000x256, .f32⟩
  | 41 => ⟨S1x256x256, .f32⟩
  | 42 => ⟨S256x256, .f32⟩
  | 43 => ⟨S1x256, .f32⟩
  | 44 => ⟨S256, .f32⟩
  | 45 => ⟨S1x256x256, .f32⟩
  | 46 => ⟨S256x256, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x256, .f32⟩
  | 56 => ⟨S_, .f32⟩
  | 57 => ⟨S50000x256, .f32⟩
  | 58 => ⟨S800000x1, .i32⟩
  | 59 => ⟨S50000x256, .f32⟩
  | 60 => ⟨S_, .f32⟩
  | 61 => ⟨S800000, .f32⟩
  | 62 => ⟨S_, .f32⟩
  | 63 => ⟨S50000, .f32⟩
  | 64 => ⟨S800000x1, .i32⟩
  | 65 => ⟨S50000, .f32⟩
  | 66 => ⟨S_, .f32⟩
  | 67 => ⟨S50000, .f32⟩
  | 68 => ⟨S50000, .f32⟩
  | 69 => ⟨S50000x1, .f32⟩
  | 70 => ⟨S50000x256, .f32⟩
  | 71 => ⟨S50000x256, .f32⟩
  | 72 => ⟨S50000x256, .f32⟩
  | 73 => ⟨S1x256, .f32⟩
  | 74 => ⟨S50000x256, .f32⟩
  | 75 => ⟨S50000x256, .f32⟩
  | 76 => ⟨S50000x256, .f32⟩
  | 77 => ⟨S50000x256, .f32⟩
  | 78 => ⟨S_, .f32⟩
  | 79 => ⟨S50000x256, .f32⟩
  | 80 => ⟨S50000x256, .f32⟩
  | 81 => ⟨S_, .f32⟩
  | 82 => ⟨S128x256, .f32⟩
  | 83 => ⟨S50000x1, .i32⟩
  | 84 => ⟨S128x256, .f32⟩
  | 85 => ⟨S_, .f32⟩
  | 86 => ⟨S50000, .f32⟩
  | 87 => ⟨S_, .f32⟩
  | 88 => ⟨S128, .f32⟩
  | 89 => ⟨S50000x1, .i32⟩
  | 90 => ⟨S128, .f32⟩
  | 91 => ⟨S_, .f32⟩
  | 92 => ⟨S128, .f32⟩
  | 93 => ⟨S128, .f32⟩
  | 94 => ⟨S128x1, .f32⟩
  | 95 => ⟨S128x256, .f32⟩
  | 96 => ⟨S128x256, .f32⟩
  | 97 => ⟨S128x10, .f32⟩
  | 98 => ⟨S1x10, .f32⟩
  | 99 => ⟨S128x10, .f32⟩
  | 100 => ⟨S128x10, .f32⟩
  | 101 => ⟨S_, .f32⟩
  | 102 => ⟨S128, .f32⟩
  | 103 => ⟨S_, .f32⟩
  | 104 => ⟨S128, .f32⟩
  | 105 => ⟨S128, .f32⟩
  | 106 => ⟨S128x1, .f32⟩
  | 107 => ⟨S128x10, .f32⟩
  | 108 => ⟨S128x10, .f32⟩
  | 109 => ⟨S128x10, .f32⟩
  | 110 => ⟨S_, .f32⟩
  | 111 => ⟨S128, .f32⟩
  | 112 => ⟨S128x1, .f32⟩
  | 113 => ⟨S128x1, .f32⟩
  | 114 => ⟨S128x10, .f32⟩
  | 115 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_10 : Ref sig .tc := ⟨.hbm, 95, rfl⟩
abbrev main_v68 : Ref sig .tc := ⟨.hbm, 96, rfl⟩
abbrev main_v69 : Ref sig .tc := ⟨.hbm, 97, rfl⟩
abbrev main_c_11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_12 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_13 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call2_cst : Ref sig .tc := ⟨.hbm, 126, rfl⟩
abbrev main_call2_v0 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_16 : Ref sig .tc := ⟨.hbm, 135, rfl⟩
abbrev main_v100 : Ref sig .tc := ⟨.hbm, 136, rfl⟩
abbrev main_v101 : Ref sig .tc := ⟨.hbm, 137, rfl⟩
abbrev main_c_17 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_18 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_19 : Ref sig .tc := ⟨.hbm, 148, rfl⟩
abbrev main_v110 : Ref sig .tc := ⟨.hbm, 149, rfl⟩
abbrev main_cst_20 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_21 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_call3_cst : Ref sig .tc := ⟨.hbm, 166, rfl⟩
abbrev main_call3_v0 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_c_22 : Ref sig .tc := ⟨.hbm, 175, rfl⟩
abbrev main_v132 : Ref sig .tc := ⟨.hbm, 176, rfl⟩
abbrev main_v133 : Ref sig .tc := ⟨.hbm, 177, rfl⟩
abbrev main_c_23 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_24 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_25 : Ref sig .tc := ⟨.hbm, 188, rfl⟩
abbrev main_v142 : Ref sig .tc := ⟨.hbm, 189, rfl⟩
abbrev main_cst_26 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_27 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_call4_cst : Ref sig .tc := ⟨.hbm, 206, rfl⟩
abbrev main_call4_v0 : Ref sig .tc := ⟨.hbm, 207, rfl⟩
abbrev main_v157 : Ref sig .tc := ⟨.hbm, 208, rfl⟩
abbrev main_cst_28 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_29 : Ref sig .tc := ⟨.hbm, 213, rfl⟩
abbrev main_v161 : Ref sig .tc := ⟨.hbm, 214, rfl⟩
abbrev main_cst_30 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_31 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_call5_cst : Ref sig .tc := ⟨.hbm, 229, rfl⟩
abbrev main_call5_v0 : Ref sig .tc := ⟨.hbm, 230, rfl⟩
abbrev main_call5_cst_0 : Ref sig .tc := ⟨.hbm, 231, rfl⟩
abbrev main_call5_v1 : Ref sig .tc := ⟨.hbm, 232, rfl⟩
abbrev main_call5_v2 : Ref sig .tc := ⟨.hbm, 233, rfl⟩
abbrev main_call5_v3 : Ref sig .tc := ⟨.hbm, 234, rfl⟩
abbrev main_call5_v4 : Ref sig .tc := ⟨.hbm, 235, rfl⟩
abbrev main_call5_v5 : Ref sig .tc := ⟨.hbm, 236, rfl⟩
abbrev main_call5_v6 : Ref sig .tc := ⟨.hbm, 237, rfl⟩
abbrev main_call5_cst_1 : Ref sig .tc := ⟨.hbm, 238, rfl⟩
abbrev main_call5_v7 : Ref sig .tc := ⟨.hbm, 239, rfl⟩
abbrev main_call5_v8 : Ref sig .tc := ⟨.hbm, 240, rfl⟩
abbrev main_call5_v9 : Ref sig .tc := ⟨.hbm, 241, rfl⟩
abbrev main_call5_v10 : Ref sig .tc := ⟨.hbm, 242, rfl⟩
abbrev main_v174 : Ref sig .tc := ⟨.hbm, 243, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S50000x1_S50000x256_0_1 : S50000x1.BroadcastsInDim S50000x256 (![0, 1] : Fin 2 → Fin S50000x256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S_S128x256 : S_.BroadcastsInDim S128x256 (![] : Fin 0 → Fin S128x256.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1
  dot_S128x256_S256x10_S128x10_1_0_0_1_n_n_wf : DotDims.WF S128x256 S256x10 S128x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

class Facts : Prop extends Facts₀ where

variable [Facts]
-- ==== Proof.FrR0.lean ====
import proofs.«420935_j80238579024178_3_alg».proof.Proof.Gen.KernelIdeal.Launch
import proofs.«420935_j80238579024178_3_alg».proof.Proof.Gen.KernelIdeal.Skeleton
import proofs.«420935_j80238579024178_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S2000x128 := Rect.unit (s := S2000x128) ![0, 0] S2000x128.size inb_S2000x128_S2000x128_0_0
abbrev r0_d : Rect S2000x1 := Rect.unit (s := S2000x1) ![0, 0] S2000x1.size inb_S2000x1_S2000x1_0_0
abbrev r0_w : Rect S128x256 := Rect.unit (s := S128x256) ![0, 0] S128x256.size inb_S128x256_S128x256_0_0
abbrev r0_b : Rect S256 := Rect.unit (s := S256) ![0] S256.size inb_S256_S256_0
abbrev r0_o : Rect S2000x256 := Rect.unit (s := S2000x256) ![0, 0] S2000x256.size inb_S2000x256_S2000x256_0_0

def out0_6 (x0 : Vec F S2000x128 .f32) (x1 : Vec F S2000x1 .f32) (x2 : Vec F S2000x128 .f32) (x3 : Vec F S128x256 .f32)
    (x4 : Vec F S256 .f32) (x5 : Vec F S128x256 .f32) : Vec F S2000x256 .bf16 :=
  View.canon [⟨r0_o, k0_pay1 (View.ld x0 r0_x) (View.ld x1 r0_d) (View.ld x2 r0_x) (View.ld x3 r0_w) (View.ld x5 r0_w) (View.ld x4 r0_b)⟩]

theorem cover0_6 (p0 : Vec F S2000x256 .bf16) (y : S2000x256.Idx) :
    ∃ pc ∈ ([⟨r0_o, p0⟩] : List (View.Piece (Elt F) S2000x256 .bf16)), y ∈ pc.1.set :=
  View.cover_of_tiled [⟨r0_o, p0⟩] S2000x256.size (by rfl) y

set_option maxHeartbeats 1000000 in

theorem sound_kernel0 (c : Dev nD) (E : Set ℕ) (i : grid0.Coords)
    (arg1 : Memref sig .tc .vmem S2000x128 .f32) (harg1 : arg1.IsWhole) (arg2 : Memref sig .tc .vmem S2000x1 .f32) (harg2 : arg2.IsWhole)
    (arg3 : Memref sig .tc .vmem S2000x128 .f32) (harg3 : arg3.IsWhole) (arg4 : Memref sig .tc .vmem S128x256 .f32) (harg4 : arg4.IsWhole)
    (arg5 : Memref sig .tc .vmem S256 .f32) (harg5 : arg5.IsWhole) (arg6 : Memref sig .tc .vmem S128x256 .f32) (harg6 : arg6.IsWhole)
    (arg7 : Memref sig .tc .vmem S2000x256 .bf16) (harg7 : arg7.IsWhole)
    (x0 : Vec F S2000x128 .f32) (x1 : Vec F S2000x1 .f32) (x2 : Vec F S2000x128 .f32) (x3 : Vec F S128x256 .f32)
    (x4 : Vec F S256 .f32) (x5 : Vec F S128x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Region0

end Cert.KernelIdeal.Fr
-- ==== Proof.FrR1.lean ====
import proofs.«420935_j80238579024178_3_alg».proof.Proof.Gen.KernelIdeal.Launch
import proofs.«420935_j80238579024178_3_alg».proof.Proof.Gen.KernelIdeal.Skeleton
import proofs.«420935_j80238579024178_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S2000x256 := Rect.unit (s := S2000x256) ![0, 0] S2000x256.size inb_S2000x256_S2000x256_0_0
abbrev r1_d : Rect S2000x1 := Rect.unit (s := S2000x1) ![0, 0] S2000x1.size inb_S2000x1_S2000x1_0_0
abbrev r1_w : Rect S256x256 := Rect.unit (s := S256x256) ![0, 0] S256x256.size inb_S256x256_S256x256_0_0
abbrev r1_b : Rect S256 := Rect.unit (s := S256) ![0] S256.size inb_S256_S256_0
abbrev r1_o : Rect S2000x256 := Rect.unit (s := S2000x256) ![0, 0] S2000x256.size inb_S2000x256_S2000x256_0_0

def out1_6 (x0 : Vec F S2000x256 .f32) (x1 : Vec F S2000x1 .f32) (x2 : Vec F S2000x256 .bf16) (x3 : Vec F S256x256 .f32)
    (x4 : Vec F S256 .f32) (x5 : Vec F S256x256 .f32) : Vec F S2000x256 .bf16 :=
  View.canon [⟨r1_o, k1_pay1 (View.ld x0 r1_x) (View.ld x1 r1_d) (View.ld x2 r1_x) (View.ld x3 r1_w) (View.ld x5 r1_w) (View.ld x4 r1_b)⟩]

theorem cover1_6 (p0 : Vec F S2000x256 .bf16) (y : S2000x256.Idx) :
    ∃ pc ∈ ([⟨r1_o, p0⟩] : List (View.Piece (Elt F) S2000x256 .bf16)), y ∈ pc.1.set :=
  View.cover_of_tiled [⟨r1_o, p0⟩] S2000x256.size (by rfl) y

set_option maxHeartbeats 1000000 in

theorem sound_kernel1 (c : Dev nD) (E : Set ℕ) (i : grid1.Coords)
    (arg1 : Memref sig .tc .vmem S2000x256 .f32) (harg1 : arg1.IsWhole) (arg2 : Memref sig .tc .vmem S2000x1 .f32) (harg2 : arg2.IsWhole)
    (arg3 : Memref sig .tc .vmem S2000x256 .bf16) (harg3 : arg3.IsWhole) (arg4 : Memref sig .tc .vmem S256x256 .f32) (harg4 : arg4.IsWhole)
    (arg5 : Memref sig .tc .vmem S256 .f32) (harg5 : arg5.IsWhole) (arg6 : Memref sig .tc .vmem S256x256 .f32) (harg6 : arg6.IsWhole)
    (arg7 : Memref sig .tc .vmem S2000x256 .bf16) (harg7 : arg7.IsWhole)
    (x0 : Vec F S2000x256 .f32) (x1 : Vec F S2000x1 .f32) (x2 : Vec F S2000x256 .bf16) (x3 : Vec F S256x256 .f32)
    (x4 : Vec F S256 .f32) (x5 : Vec F S256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__combine_kernel i arg1 harg1 arg2 harg2 arg3 harg3 arg4 harg4 arg5 harg5 arg6 harg6 arg7 harg7) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Regions

end Cert.KernelIdeal.Fr
-- ==== Proof.FrR2.lean ====
import proofs.«420935_j80238579024178_3_alg».proof.Proof.Gen.KernelIdeal.Launch
import proofs.«420935_j80238579024178_3_alg».proof.Proof.Gen.KernelIdeal.Skeleton
import proofs.«420935_j80238579024178_3_alg».proof.Proof.Gen.KernelIdeal.Points
import proofs.«420935_j80238579024178_3_alg».proof.Proof.FrR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S2000x256 := Rect.unit (s := S2000x256) ![0, 0] S2000x256.size inb_S2000x256_S2000x256_0_0
abbrev r2_d : Rect S2000x1 := Rect.unit (s := S2000x1) ![0, 0] S2000x1.size inb_S2000x1_S2000x1_0_0
abbrev r2_w : Rect S256x256 := Rect.unit (s := S256x256) ![0, 0] S256x256.size inb_S256x256_S256x256_0_0
abbrev r2_b : Rect S256 := Rect.unit (s := S256) ![0] S256.size inb_S256_S256_0
abbrev r2_o : Rect S2000x256 := Rect.unit (s := S2000x256) ![0, 0] S2000x256.size inb_S2000x256_S2000x256_0_0

def out2_6 (x0 : Vec F S2000x256 .f32) (x1 : Vec F S2000x1 .f32) (x2 : Vec F S2000x256 .bf16) (x3 : Vec F S256x256 .f32)
    (x4 : Vec F S256 .f32) (x5 : Vec F S256x256 .f32) : Vec F S2000x256 .bf16 :=
  View.canon [⟨r2_o, k2_pay1 (View.ld x0 r2_x) (View.ld x1 r2_d) (View.ld x2 r2_x) (View.ld x3 r2_w) (View.ld x5 r2_w) (View.ld x4 r2_b)⟩]

theorem sound_kernel2 (c : Dev nD) (E : Set ℕ) (i : grid2.Coords)
    (arg1 : Memref sig .tc .vmem S2000x256 .f32) (harg1 : arg1.IsWhole) (arg2 : Memref sig .tc .vmem S2000x1 .f32) (harg2 : arg2.IsWhole)
    (arg3 : Memref sig .tc .vmem S2000x256 .bf16) (harg3 : arg3.IsWhole) (arg4 : Memref sig .tc .vmem S256x256 .f32) (harg4 : arg4.IsWhole)
    (arg5 : Memref sig .tc .vmem S256 .f32) (harg5 : arg5.IsWhole) (arg6 : Memref sig .tc .vmem S256x256 .f32) (harg6 : arg6.IsWhole)
    (arg7 : Memref sig .tc .vmem S2000x256 .bf16) (harg7 : arg7.IsWhole)
    (x0 : Vec F S2000x256 .f32) (x1 : Vec F S2000x1 .f32) (x2 : Vec F S2000x256 .bf16) (x3 : Vec F S256x256 .f32)
    (x4 : Vec F S256 .f32) (x5 : Vec F S256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__combine_kernel i arg1 harg1 arg2 harg2 arg3 harg3 arg4 harg4 arg5 harg5 arg6 harg6 arg7 harg7) K :=
  sound_kernel1 c E i arg1 harg1 arg2 harg2 arg3 harg3 arg4 harg4 arg5 harg5 arg6 harg6 arg7 harg7 x0 x1 x2 x3 x4 x5 K

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Regions

end Cert.KernelIdeal.Fr
-- ==== Proof.FrR3.lean ====
import proofs.«420935_j80238579024178_3_alg».proof.Proof.Gen.KernelIdeal.Launch
import proofs.«420935_j80238579024178_3_alg».proof.Proof.Gen.KernelIdeal.Skeleton
import proofs.«420935_j80238579024178_3_alg».proof.Proof.Gen.KernelIdeal.Points
import proofs.«420935_j80238579024178_3_alg».proof.Proof.FrR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev r3_x : Rect S2000x256 := Rect.unit (s := S2000x256) ![0, 0] S2000x256.size inb_S2000x256_S2000x256_0_0
abbrev r3_d : Rect S2000x1 := Rect.unit (s := S2000x1) ![0, 0] S2000x1.size inb_S2000x1_S2000x1_0_0
abbrev r3_w : Rect S256x256 := Rect.unit (s := S256x256) ![0, 0] S256x256.size inb_S256x256_S256x256_0_0
abbrev r3_b : Rect S256 := Rect.unit (s := S256) ![0] S256.size inb_S256_S256_0
abbrev r3_o : Rect S2000x256 := Rect.unit (s := S2000x256) ![0, 0] S2000x256.size inb_S2000x256_S2000x256_0_0

def out3_6 (x0 : Vec F S2000x256 .f32) (x1 : Vec F S2000x1 .f32) (x2 : Vec F S2000x256 .bf16) (x3 : Vec F S256x256 .f32)
    (x4 : Vec F S256 .f32) (x5 : Vec F S256x256 .f32) : Vec F S2000x256 .bf16 :=
  View.canon [⟨r3_o, k3_pay1 (View.ld x0 r3_x) (View.ld x1 r3_d) (View.ld x2 r3_x) (View.ld x3 r3_w) (View.ld x5 r3_w) (View.ld x4 r3_b)⟩]

theorem sound_kernel3 (c : Dev nD) (E : Set ℕ) (i : grid3.Coords)
    (arg1 : Memref sig .tc .vmem S2000x256 .f32) (harg1 : arg1.IsWhole) (arg2 : Memref sig .tc .vmem S2000x1 .f32) (harg2 : arg2.IsWhole)
    (arg3 : Memref sig .tc .vmem S2000x256 .bf16) (harg3 : arg3.IsWhole) (arg4 : Memref sig .tc .vmem S256x256 .f32) (harg4 : arg4.IsWhole)
    (arg5 : Memref sig .tc .vmem S256 .f32) (harg5 : arg5.IsWhole) (arg6 : Memref sig .tc .vmem S256x256 .f32) (harg6 : arg6.IsWhole)
    (arg7 : Memref sig .tc .vmem S2000x256 .bf16) (harg7 : arg7.IsWhole)
    (x0 : Vec F S2000x256 .f32) (x1 : Vec F S2000x1 .f32) (x2 : Vec F S2000x256 .bf16) (x3 : Vec F S256x256 .f32)
    (x4 : Vec F S256 .f32) (x5 : Vec F S256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__combine_kernel i arg1 harg1 arg2 harg2 arg3 harg3 arg4 harg4 arg5 harg5 arg6 harg6 arg7 harg7) K :=
  sound_kernel1 c E i arg1 harg1 arg2 harg2 arg3 harg3 arg4 harg4 arg5 harg5 arg6 harg6 arg7 harg7 x0 x1 x2 x3 x4 x5 K

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _
    (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Regions

end Cert.KernelIdeal.Fr
-- ==== Proof.FrR4Runs.lean ====
import proofs.«420935_j80238579024178_3_alg».proof.Proof.Gen.KernelIdeal.Launch
import proofs.«420935_j80238579024178_3_alg».proof.Proof.Gen.KernelIdeal.Skeleton
import proofs.«420935_j80238579024178_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 0).val) 0#32)) 0#32) = 1#1

theorem hcond4_0 : ∀ t : Fin cfg4.N, cond4_0 (grid4.coords t) ↔ t.val % 25 = 0 :=
  (by decide +kernel : ∀ t : Fin grid4.N, cond4_0 (grid4.coords t) ↔ t.val % 25 = 0)

abbrev cond4_1 (i : grid4.Coords) : Prop := k4_cond2 i = 1#1

theorem hcond4_1 : ∀ t : Fin cfg4.N, cond4_1 (grid4.coords t) ↔ t.val % 25 = 24 :=
  (by decide +kernel : ∀ t : Fin grid4.N, cond4_1 (grid4.coords t) ↔ t.val % 25 = 24)

theorem liveAt4_0 : ∀ t : Fin cfg4.N, cfg4.idle 0 (grid4.coords t) = false := by decide +kernel

theorem liveAt4_1 : ∀ t : Fin cfg4.N, cfg4.idle 1 (grid4.coords t) = false := by decide +kernel

theorem liveAt4_2 : ∀ t : Fin cfg4.N, cfg4.idle 2 (grid4.coords t) = false := by decide +kernel

theorem liveAt4_3 : ∀ t : Fin cfg4.N, cfg4.idle 3 (grid4.coords t) = false := by decide +kernel

theorem liveAt4_4 : ∀ t : Fin cfg4.N, cfg4.idle 4 (grid4.coords t) = false := by decide +kernel

theorem liveAt4_5 : ∀ t : Fin cfg4.N, cfg4.idle 5 (grid4.coords t) = false := by decide +kernel

theorem liveAt4_6 : ∀ t : Fin cfg4.N, cfg4.idle 6 (grid4.coords t) = false := by decide +kernel

theorem liveAt4_7 : ∀ t : Fin cfg4.N, cfg4.idle 7 (grid4.coords t) = false := by decide +kernel

theorem liveAt4_8 : ∀ t : Fin cfg4.N, cfg4.idle 8 (grid4.coords t) = false := by decide +kernel

theorem idleAt4_9_A : ∀ t : Fin cfg4.N, cond4_0 (grid4.coords t) → ¬cond4_1 (grid4.coords t) → cfg4.idle 9 (grid4.coords t) = true := by decide +kernel

theorem noFlush4_9_A : ∀ t : Fin cfg4.N, cond4_0 (grid4.coords t) → ¬cond4_1 (grid4.coords t) → (cfg4.win 9).flush t = false := by decide +kernel

theorem idleAt4_9_B : ∀ t : Fin cfg4.N, ¬cond4_0 (grid4.coords t) → ¬cond4_1 (grid4.coords t) → cfg4.idle 9 (grid4.coords t) = true := by decide +kernel

theorem noFlush4_9_B : ∀ t : Fin cfg4.N, ¬cond4_0 (grid4.coords t) → ¬cond4_1 (grid4.coords t) → (cfg4.win 9).flush t = false := by decide +kernel

theorem liveAt4_9_C : ∀ t : Fin cfg4.N, ¬cond4_0 (grid4.coords t) → cond4_1 (grid4.coords t) → cfg4.idle 9 (grid4.coords t) = false := by decide +kernel

abbrev VO4_9 : View sig .tc .vmem S128x10 .f32 := (Memref.whole cc4_stg9_0 : Memref sig .tc .vmem S128x10 .f32).view

abbrev ms4_0 (t : Fin cfg4.N) : Memref sig .tc .vmem S2000x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2000x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2000x256 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S256x256 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2000x1 .i32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S256x10 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S10 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S128x10 .f32 := win4_9.stage (cfg4.slots t 9)
abbrev hs4_9 (t : Fin cfg4.N) : (ms4_9 t).IsWhole := hstage4_9 ((cfg4.slots t 9).cast nbuf4_9)

abbrev scM4_0 : Memref sig .tc .vmem S128x256 .f32 := Memref.whole cc4_scratch0
abbrev scM4_1 : Memref sig .tc .vmem S128x1 .f32 := Memref.whole cc4_scratch1

abbrev VS4_0 : View sig .tc .vmem S128x256 .f32 := scM4_0.view
abbrev VS4_1 : View sig .tc .vmem S128x1 .f32 := scM4_1.view

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut spec4 c [cc4_scratch0, cc4_scratch1]) ∗ (∃ r, prngReg c r)) := by
  unfold Pipeline.ΦA; rw [scopedRest4_split]; simp only [scM4_0, scM4_1, owns_whole]; try rfl

end Cert.KernelIdeal.Fr

end
-- ==== Proof.FrR4A.lean ====
import proofs.«420935_j80238579024178_3_alg».proof.Proof.FrR4Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun4_A (c : Dev nD) (i : grid4.Coords) (arg1 : Memref sig .tc .vmem S2000x256 .f32) (harg1 : arg1.IsWhole) (arg2 : Memref sig .tc .vmem S2000x1 .f32) (harg2 : arg2.IsWhole) (arg3 : Memref sig .tc .vmem S2000x256 .bf16) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S2000x1 .i32) (harg7 : arg7.IsWhole) (arg8 : Memref sig .tc .vmem S256x10 .f32) (harg8 : arg8.IsWhole) (arg9 : Memref sig .tc .vmem S10 .f32) (harg9 : arg9.IsWhole) (arg10 : Memref sig .tc .vmem S128x10 .f32) (harg10 : arg10.IsWhole) (arg11 : Memref sig .tc .vmem S128x256 .f32) (harg11 : arg11.IsWhole) (arg12 : Memref sig .tc .vmem S128x1 .f32) (harg12 : arg12.IsWhole) (hc0 : cond4_0 i) (hc1 : ¬cond4_1 i)
    (x0 : Vec F S2000x256 .f32) (x1 : Vec F S2000x1 .f32) (x2 : Vec F S2000x256 .bf16) (x3 : Vec F S256x256 .f32) (x4 : Vec F S256 .f32) (x5 : Vec F S256x256 .f32) (x6 : Vec F S2000x1 .i32) (x7 : Vec F S256x10 .f32) (x8 : Vec F S10 .f32) :
    Σ' (L9 : List (View.Piece (Elt F) S128x10 .f32)) (LS0 : List (View.Piece (Elt F) S128x256 .f32)), { LS1 : List (View.Piece (Elt F) S128x1 .f32) //
      ∀ (xi9 : Vec F S128x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4__combine_pool_kernel i arg1 harg1 arg2 harg2 arg3 harg3 arg4 harg4 arg5 harg5 arg6 harg6 arg7 harg7 arg8 harg8 arg9 harg9 arg10 harg10 arg11 harg11 arg12 harg12) K } := by
  refine ⟨[], ?_, ?_, fun xi9 E K => ?run⟩
  case run =>
    simp only [cc4__combine_pool_kernel_eq_skeleton]; unfold cc4__combine_pool_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

end Cert.KernelIdeal.Fr

end
-- ==== Proof.FrR4B.lean ====
import proofs.«420935_j80238579024178_3_alg».proof.Proof.FrR4A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun4_B (c : Dev nD) (i : grid4.Coords) (arg1 : Memref sig .tc .vmem S2000x256 .f32) (harg1 : arg1.IsWhole) (arg2 : Memref sig .tc .vmem S2000x1 .f32) (harg2 : arg2.IsWhole) (arg3 : Memref sig .tc .vmem S2000x256 .bf16) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S2000x1 .i32) (harg7 : arg7.IsWhole) (arg8 : Memref sig .tc .vmem S256x10 .f32) (harg8 : arg8.IsWhole) (arg9 : Memref sig .tc .vmem S10 .f32) (harg9 : arg9.IsWhole) (arg10 : Memref sig .tc .vmem S128x10 .f32) (harg10 : arg10.IsWhole) (arg11 : Memref sig .tc .vmem S128x256 .f32) (harg11 : arg11.IsWhole) (arg12 : Memref sig .tc .vmem S128x1 .f32) (harg12 : arg12.IsWhole) (hc0 : ¬cond4_0 i) (hc1 : ¬cond4_1 i)
    (x0 : Vec F S2000x256 .f32) (x1 : Vec F S2000x1 .f32) (x2 : Vec F S2000x256 .bf16) (x3 : Vec F S256x256 .f32) (x4 : Vec F S256 .f32) (x5 : Vec F S256x256 .f32) (x6 : Vec F S2000x1 .i32) (x7 : Vec F S256x10 .f32) (x8 : Vec F S10 .f32) (xs0 : Vec F S128x256 .f32) (xs1 : Vec F S128x1 .f32) :
    Σ' (L9 : List (View.Piece (Elt F) S128x10 .f32)) (LS0 : List (View.Piece (Elt F) S128x256 .f32)), { LS1 : List (View.Piece (Elt F) S128x1 .f32) //
      ∀ (xi9 : Vec F S128x10 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4__combine_pool_kernel i arg1 harg1 arg2 harg2 arg3 harg3 arg4 harg4 arg5 harg5 arg6 harg6 arg7 harg7 arg8 harg8 arg9 harg9 arg10 harg10 arg11 harg11 arg12 harg12) K } := by
  refine ⟨[], ?_, ?_, fun xi9 E K => ?run⟩
  case run =>
    simp only [cc4__combine_pool_kernel_eq_skeleton]; unfold cc4__combine_pool_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

end Cert.KernelIdeal.Fr

end
-- ==== Proof.FrR4C.lean ====
import proofs.«420935_j80238579024178_3_alg».proof.Proof.FrR4B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun4_C (c : Dev nD) (i : grid4.Coords) (arg1 : Memref sig .tc .vmem S2000x256 .f32) (harg1 : arg1.IsWhole) (arg2 : Memref sig .tc .vmem S2000x1 .f32) (harg2 : arg2.IsWhole) (arg3 : Memref sig .tc .vmem S2000x256 .bf16) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S2000x1 .i32) (harg7 : arg7.IsWhole) (arg8 : Memref sig .tc .vmem S256x10 .f32) (harg8 : arg8.IsWhole) (arg9 : Memref sig .tc .vmem S10 .f32) (harg9 : arg9.IsWhole) (arg10 : Memref sig .tc .vmem S128x10 .f32) (harg10 : arg10.IsWhole) (arg11 : Memref sig .tc .vmem S128x256 .f32) (harg11 : arg11.IsWhole) (arg12 : Memref sig .tc .vmem S128x1 .f32) (harg12 : arg12.IsWhole) (hc0 : ¬cond4_0 i) (hc1 : cond4_1 i)
    (x0 : Vec F S2000x256 .f32) (x1 : Vec F S2000x1 .f32) (x2 : Vec F S2000x256 .bf16) (x3 : Vec F S256x256 .f32) (x4 : Vec F S256 .f32) (x5 : Vec F S256x256 .f32) (x6 : Vec F S2000x1 .i32) (x7 : Vec F S256x10 .f32) (x8 : Vec F S10 .f32) (xs0 : Vec F S128x256 .f32) (xs1 : Vec F S128x1 .f32) :
    Σ' (L9 : List (View.Piece (Elt F) S128x10 .f32)) (LS0 : List (View.Piece (Elt F) S128x256 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4__combine_pool_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc4__combine_pool_kernel_eq_skeleton]; unfold cc4__combine_pool_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]; · iexists _; iexact HS0
    iexists _; iexact HS1

end Cert.KernelIdeal.Fr

end
-- ==== Proof.FrR4.lean ====
import proofs.«420935_j80238579024178_3_alg».proof.Proof.FrR4C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid4.Coords) (arg1 : Memref sig .tc .vmem S2000x256 .f32) (harg1 : arg1.IsWhole) (arg2 : Memref sig .tc .vmem S2000x1 .f32) (harg2 : arg2.IsWhole) (arg3 : Memref sig .tc .vmem S2000x256 .bf16) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S2000x1 .i32) (harg7 : arg7.IsWhole) (arg8 : Memref sig .tc .vmem S256x10 .f32) (harg8 : arg8.IsWhole) (arg9 : Memref sig .tc .vmem S10 .f32) (harg9 : arg9.IsWhole) (arg10 : Memref sig .tc .vmem S128x10 .f32) (harg10 : arg10.IsWhole) (arg11 : Memref sig .tc .vmem S128x256 .f32) (harg11 : arg11.IsWhole) (arg12 : Memref sig .tc .vmem S128x1 .f32) (harg12 : arg12.IsWhole)

section

variable (hc0 : cond4_0 i) (hc1 : ¬cond4_1 i)
    (x0 : Vec F S2000x256 .f32) (x1 : Vec F S2000x1 .f32) (x2 : Vec F S2000x256 .bf16) (x3 : Vec F S256x256 .f32) (x4 : Vec F S256 .f32) (x5 : Vec F S256x256 .f32) (x6 : Vec F S2000x1 .i32) (x7 : Vec F S256x10 .f32) (x8 : Vec F S10 .f32)

def out4_A_9 : Vec F S128x10 .f32 :=
  VO4_9.read (Elt F) (VO4_9.writes (Elt F) VO4_9.junk (kernelRun4_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1)

theorem scover4_A_0 (y : S128x256.Idx) :
    ∃ pc ∈ (kernelRun4_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 S128x256.size (by sl_kernel_rfl) y

def sout4_A_0 : Vec F S128x256 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1)

theorem scover4_A_1 (y : S128x1.Idx) :
    ∃ pc ∈ (kernelRun4_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1 S128x1.size (by sl_kernel_rfl) y

def sout4_A_1 : Vec F S128x1 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1)

end

section

variable (hc0 : ¬cond4_0 i) (hc1 : ¬cond4_1 i)
    (x0 : Vec F S2000x256 .f32) (x1 : Vec F S2000x1 .f32) (x2 : Vec F S2000x256 .bf16) (x3 : Vec F S256x256 .f32) (x4 : Vec F S256 .f32) (x5 : Vec F S256x256 .f32) (x6 : Vec F S2000x1 .i32) (x7 : Vec F S256x10 .f32) (x8 : Vec F S10 .f32)

def out4_B_9 (xs0 : Vec F S128x256 .f32) (xs1 : Vec F S128x1 .f32) : Vec F S128x10 .f32 :=
  VO4_9.read (Elt F) (VO4_9.writes (Elt F) VO4_9.junk (kernelRun4_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).1)

theorem scover4_B_0 (xs0 : Vec F S128x256 .f32) (xs1 : Vec F S128x1 .f32) (y : S128x256.Idx) :
    ∃ pc ∈ (kernelRun4_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).2.1 S128x256.size (by sl_kernel_rfl) y

def sout4_B_0 (xs0 : Vec F S128x256 .f32) (xs1 : Vec F S128x1 .f32) : Vec F S128x256 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).2.1)

theorem scover4_B_1 (xs0 : Vec F S128x256 .f32) (xs1 : Vec F S128x1 .f32) (y : S128x1.Idx) :
    ∃ pc ∈ (kernelRun4_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).2.2.1 S128x1.size (by sl_kernel_rfl) y

def sout4_B_1 (xs0 : Vec F S128x256 .f32) (xs1 : Vec F S128x1 .f32) : Vec F S128x1 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).2.2.1)

end

section

variable (hc0 : ¬cond4_0 i) (hc1 : cond4_1 i)
    (x0 : Vec F S2000x256 .f32) (x1 : Vec F S2000x1 .f32) (x2 : Vec F S2000x256 .bf16) (x3 : Vec F S256x256 .f32) (x4 : Vec F S256 .f32) (x5 : Vec F S256x256 .f32) (x6 : Vec F S2000x1 .i32) (x7 : Vec F S256x10 .f32) (x8 : Vec F S10 .f32)

theorem cover4_C_9 (xs0 : Vec F S128x256 .f32) (xs1 : Vec F S128x1 .f32) (y : S128x10.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).1 S128x10.size (by sl_kernel_rfl) y

def out4_C_9 (xs0 : Vec F S128x256 .f32) (xs1 : Vec F S128x1 .f32) : Vec F S128x10 .f32 :=
  VO4_9.read (Elt F) (VO4_9.writes (Elt F) VO4_9.junk (kernelRun4_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).1)

theorem scover4_C_0 (xs0 : Vec F S128x256 .f32) (xs1 : Vec F S128x1 .f32) (y : S128x256.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).2.1 S128x256.size (by sl_kernel_rfl) y

def sout4_C_0 (xs0 : Vec F S128x256 .f32) (xs1 : Vec F S128x1 .f32) : Vec F S128x256 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).2.1)

theorem scover4_C_1 (xs0 : Vec F S128x256 .f32) (xs1 : Vec F S128x1 .f32) (y : S128x1.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).2.2.1 S128x1.size (by sl_kernel_rfl) y

def sout4_C_1 (xs0 : Vec F S128x256 .f32) (xs1 : Vec F S128x1 .f32) : Vec F S128x1 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1).2.2.1)

end

end

def outsAt4 (c : Dev nD) : (n : ℕ) → n < cfg4.N → Vec F S128x10 .f32 × Vec F S128x256 .f32 × Vec F S128x1 .f32
  | 0, hn => (out4_A_9 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩) (iblk4 V c 8 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩) (iblk4 V c 8 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩) (iblk4 V c 8 ⟨0, hn⟩))
  | n + 1, hn =>
    if h0 : (n + 1) % 25 = 0 then
      if h1 : (n + 1) % 25 = 24 then
        False.elim (by omega)
      else
        (out4_A_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩))
    else
      if h1 : (n + 1) % 25 = 24 then
        (out4_C_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2)
      else
        (out4_B_9 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (iblk4 V c 8 ⟨n + 1, hn⟩) (outsAt4 c n (Nat.lt_of_succ_lt hn)).2.1 (outsAt4 c n (Nat.lt_of_succ_lt hn)).2.2)

theorem outsAt4_A (c : Dev nD) (t : Fin cfg4.N) (h0 : t.val % 25 = 0) (h1 : ¬t.val % 25 = 24) :
    outsAt4 V c t.val t.isLt = (out4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t)) := by
  obtain ⟨n, hn⟩ := t
  cases n with
  | zero => exact rfl
  | succ n => exact (dif_pos h0).trans ((dif_neg h1).trans rfl)

theorem outsAt4_B (c : Dev nD) (t : Fin cfg4.N) (h0 : ¬t.val % 25 = 0) (h1 : ¬t.val % 25 = 24) :
    outsAt4 V c t.val t.isLt = (out4_B_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 25 = 0) (h1 : t.val % 25 = 24) :
    outsAt4 V c t.val t.isLt = (out4_C_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.1) ∗ owns (c : Thread nD τ) scM4_1 fullShare ((outsAt4 V c n hn).2.2))
      ∗ Pipeline.scopedRestBut spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.1) ∗ owns (c : Thread nD τ) scM4_1 fullShare ((outsAt4 V c n hn).2.2))
      ∗ Pipeline.scopedRestBut spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.1) ∗ owns (c : Thread nD τ) scM4_1 fullShare ((outsAt4 V c (n - 1) (by omega)).2.2))
      ∗ Pipeline.scopedRestBut spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t)

set_option maxHeartbeats 8000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  rw [show (dat4 V c).leavesExact 6 t = owns (c : Thread nD τ) (ms4_6 t) fullShare ((dat4 V c).after 6 t) from by
    unfold Dat.leavesExact; rw [liveAt4_6 t], after4_6]
  rw [show (dat4 V c).leavesExact 7 t = owns (c : Thread nD τ) (ms4_7 t) fullShare ((dat4 V c).after 7 t) from by
    unfold Dat.leavesExact; rw [liveAt4_7 t], after4_7]
  rw [show (dat4 V c).leavesExact 8 t = owns (c : Thread nD τ) (ms4_8 t) fullShare ((dat4 V c).after 8 t) from by
    unfold Dat.leavesExact; rw [liveAt4_8 t], after4_8]
  by_cases h0 : t.val % 25 = 0
  · by_cases h1 : t.val % 25 = 24
    · exfalso; omega
    · have hz : t.val = 0 := by omega
      rw [Dat.leavesExact_idle (dat4 V c) 9 t (idleAt4_9_A t ((hcond4_0 t).mpr h0) (fun h => h1 ((hcond4_1 t).mp h))) (noFlush4_9_A t ((hcond4_0 t).mpr h0) (fun h => h1 ((hcond4_1 t).mp h)))]
      rw [outsAt4_A V c t h0 h1]
      unfold sout4_A_0 sout4_A_1; (try dsimp only)
      rw [PhiS4_castSucc V c t, PhiS4_zero V c _ _ hz, PhiA4_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun4_A c (grid4.coords t) _ _ _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_A_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_A_1 c _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun e => h0 (by rw [e])
    by_cases h1 : t.val % 25 = 24
    · rw [show (dat4 V c).leavesExact 9 t = owns (c : Thread nD τ) (ms4_9 t) fullShare ((dat4 V c).after 9 t) from by
        unfold Dat.leavesExact; rw [liveAt4_9_C t (fun h => h0 ((hcond4_0 t).mp h)) ((hcond4_1 t).mpr h1)], after4_9]
      rw [outsAt4_C V c t h0 h1]
      unfold out4_C_9 sout4_C_0 sout4_C_1; (try dsimp only)
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun4_C c (grid4.coords t) _ _ _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (iblk4 V c 8 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, ⟨%e9, H9⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover4_C_9 c _ _ _ _ _ _ _ _ _ _ _ _ _ _ _ _ _ _ _ _ _ _ _ _ _ _ _ _ _ _ _ _ _ _ _ _ _ _)
    · rw [Dat.leavesExact_idle (dat4 V c) 9 t (idleAt4_9_B t (fun h => h0 ((hcond4_0 t).mp h)) (fun h => h1 ((hcond4_1 t).mp h))) (noFlush4_9_B t (fun h => h0 ((hcond4_0 t).mp h)) (fun h => h1 ((hcond4_1 t).mp h)))]
      rw [outsAt4_B V c t h0 h1]
      unfold sout4_B_0 sout4_B_1; (try dsimp only)
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun4_B c (grid4.coords t) _ _ _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout4 (c : Dev nD) : (dat4 V c).Φ (Fin.last cfg4.N) ⊢ Pipeline.ΦA spec4 c :=
  Phi_out4 V c _ (by rw [Fin.val_last]; have : cfg4.N = 25 := N_4; omega)

end Cert.KernelIdeal.Fr

end
-- ==== Proof.FrRun.lean ====
import proofs.«420935_j80238579024178_3_alg».proof.Proof.Gen.KernelIdeal.Launch
import proofs.«420935_j80238579024178_3_alg».proof.Proof.Gen.KernelIdeal.Skeleton
import proofs.«420935_j80238579024178_3_alg».proof.Proof.Gen.KernelIdeal.Points
import proofs.«420935_j80238579024178_3_alg».proof.Proof.Gen.KernelIdeal.Regions
import proofs.«420935_j80238579024178_3_alg».proof.Proof.FrR0
import proofs.«420935_j80238579024178_3_alg».proof.Proof.FrR1
import proofs.«420935_j80238579024178_3_alg».proof.Proof.FrR2
import proofs.«420935_j80238579024178_3_alg».proof.Proof.FrR3
import proofs.«420935_j80238579024178_3_alg».proof.Proof.FrR4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W2_of (c : Dev nD) (r : Ref sig .tc) (h : r ≠ main_v23) :
    W2 m ρ c (Proc.devRef .tc r) = W1 m ρ c (Proc.devRef .tc r) := by
  by_cases hr : ∃ w, Pipeline.arrRef spec0 w = r
  · obtain ⟨w, rfl⟩ := hr
    have hin : (cfg0.win w).isOut = false :=
      (show ∀ w : Fin 7, Pipeline.arrRef spec0 w ≠ main_v23 → (cfg0.win w).isOut = false from by decide) w h
    exact (W2_arr m ρ c w).trans (((dat0 (V1 m ρ) c).arrAt_in w hin _).trans (A_eq0 (V1 m ρ) c w))
  · exact W2_of_ne m ρ c r fun w e => hr ⟨w, e⟩

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_of (c : Dev nD) (r : Ref sig .tc) (h : r ≠ main_v41) :
    W4 m ρ c (Proc.devRef .tc r) = W3 m ρ c (Proc.devRef .tc r) := by
  by_cases hr : ∃ w, Pipeline.arrRef spec1 w = r
  · obtain ⟨w, rfl⟩ := hr
    have hin : (cfg1.win w).isOut = false :=
      (show ∀ w : Fin 7, Pipeline.arrRef spec1 w ≠ main_v41 → (cfg1.win w).isOut = false from by decide) w h
    exact (W4_arr m ρ c w).trans (((dat1 (V3 m ρ) c).arrAt_in w hin _).trans (A_eq1 (V3 m ρ) c w))
  · exact W4_of_ne m ρ c r fun w e => hr ⟨w, e⟩

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

theorem W6_of (c : Dev nD) (r : Ref sig .tc) (h : r ≠ main_v59) :
    W6 m ρ c (Proc.devRef .tc r) = W5 m ρ c (Proc.devRef .tc r) := by
  by_cases hr : ∃ w, Pipeline.arrRef spec2 w = r
  · obtain ⟨w, rfl⟩ := hr
    have hin : (cfg2.win w).isOut = false :=
      (show ∀ w : Fin 7, Pipeline.arrRef spec2 w ≠ main_v59 → (cfg2.win w).isOut = false from by decide) w h
    exact (W6_arr m ρ c w).trans (((dat2 (V5 m ρ) c).arrAt_in w hin _).trans (A_eq2 (V5 m ρ) c w))
  · exact W6_of_ne m ρ c r fun w e => hr ⟨w, e⟩

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

theorem W8_of (c : Dev nD) (r : Ref sig .tc) (h : r ≠ main_v77) :
    W8 m ρ c (Proc.devRef .tc r) = W7 m ρ c (Proc.devRef .tc r) := by
  by_cases hr : ∃ w, Pipeline.arrRef spec3 w = r
  · obtain ⟨w, rfl⟩ := hr
    have hin : (cfg3.win w).isOut = false :=
      (show ∀ w : Fin 7, Pipeline.arrRef spec3 w ≠ main_v77 → (cfg3.win w).isOut = false from by decide) w h
    exact (W8_arr m ρ c w).trans (((dat3 (V7 m ρ) c).arrAt_in w hin _).trans (A_eq3 (V7 m ρ) c w))
  · exact W8_of_ne m ρ c r fun w e => hr ⟨w, e⟩

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb

abbrev V10 : (c : Dev nD) → (b : Ref sig .tc) → Buf (Elt F) ((c : Thread nD τ).loc b) := fun c b => W10 m ρ c b

theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

theorem W10_of (c : Dev nD) (r : Ref sig .tc) (h : r ≠ main_v96) :
    W10 m ρ c (Proc.devRef .tc r) = W9 m ρ c (Proc.devRef .tc r) := by
  by_cases hr : ∃ w, Pipeline.arrRef spec4 w = r
  · obtain ⟨w, rfl⟩ := hr
    have hin : (cfg4.win w).isOut = false :=
      (show ∀ w : Fin 10, Pipeline.arrRef spec4 w ≠ main_v96 → (cfg4.win w).isOut = false from by decide) w h
    exact (W10_arr m ρ c w).trans (((dat4 (V9 m ρ) c).arrAt_in w hin _).trans (A_eq4 (V9 m ρ) c w))
  · exact W10_of_ne m ρ c r fun w e => hr ⟨w, e⟩

theorem W10_arg (c : Dev nD) (r : Ref sig .tc) :
    (r ≠ main_v96 ∧ r ∉ hostOps4_W ∧ r ≠ main_v77 ∧ r ∉ hostOps3_W ∧ r ≠ main_v59 ∧ r ∉ hostOps2_W ∧ r ≠ main_v41 ∧ r ∉ hostOps1_W
      ∧ r ≠ main_v23 ∧ r ∉ hostOps0_W) → W10 m ρ c (Proc.devRef .tc r) = m ((c : Thread nD τ).loc r) :=
  fun ⟨h10, h9, h8, h7, h6, h5, h4, h3, h2, h1⟩ =>
    (W10_of m ρ c r h10).trans <| (W9_of m ρ c r h9).trans <| (W8_of m ρ c r h8).trans <| (W7_of m ρ c r h7).trans <|
      (W6_of m ρ c r h6).trans <| (W5_of m ρ c r h5).trans <| (W4_of m ρ c r h4).trans <| (W3_of m ρ c r h3).trans <|
      (W2_of m ρ c r h2).trans <| (W1_of m ρ c r h1).trans <| rfl

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V9 m ρ) c)
    unfold Pipeline.ΦA
    iintro ⟨Hp, -, Hr⟩
    isplitl [Hr]; · iexact Hr
    iexact Hp
  hout c := by
    rw [Pipeline.ownSems0_none]
    refine BIBase.Entails.trans (hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]

theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()) ] from rfl]
  rfl

set_option backward.isDefEq.respectTransparency.types false in

theorem run : θ_run defs (onTc (τ := τ) (main (F := F))) ⟨m, fun _ => 0, ρ⟩ (fun r => ∀ c : Dev nD,
      r.2.mem ((c.tc : Thread nD τ).loc main_v96) = W10 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v96 (by decide)),
       (h c _ (mem_uc main_arg0 (by decide))).trans (W10_arg m ρ c main_arg0 (by decide)),
       (h c _ (mem_uc main_arg1 (by decide))).trans (W10_arg m ρ c main_arg1 (by decide)),
       (h c _ (mem_uc main_arg2 (by decide))).trans (W10_arg m ρ c main_arg2 (by decide)),
       (h c _ (mem_uc main_arg3 (by decide))).trans (W10_arg m ρ c main_arg3 (by decide)),
       (h c _ (mem_uc main_arg4 (by decide))).trans (W10_arg m ρ c main_arg4 (by decide)),
       (h c _ (mem_uc main_arg5 (by decide))).trans (W10_arg m ρ c main_arg5 (by decide)),
       (h c _ (mem_uc main_arg6 (by decide))).trans (W10_arg m ρ c main_arg6 (by decide)),
       (h c _ (mem_uc main_arg7 (by decide))).trans (W10_arg m ρ c main_arg7 (by decide)),
       (h c _ (mem_uc main_arg8 (by decide))).trans (W10_arg m ρ c main_arg8 (by decide)),
       (h c _ (mem_uc main_arg9 (by decide))).trans (W10_arg m ρ c main_arg9 (by decide)),
       (h c _ (mem_uc main_arg10 (by decide))).trans (W10_arg m ρ c main_arg10 (by decide))⟩)

end Cert.KernelIdeal.Fr

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr2 (a b : ℕ) : Type := (⟨2, ![a, b]⟩ : Shape).Idx → EReal
abbrev Arr1 (a : ℕ) : Type := (⟨1, ![a]⟩ : Shape).Idx → EReal

def IsReal (x : EReal) : Prop := ∃ r : ℝ, x = (r : EReal)

def layK {C : ℕ} (agg : Arr2 50000 C) (inv : Arr2 50000 1) (x : Arr2 50000 C) (Wl : Arr2 C 256) (bl : Arr1 256)
    (Wr : Arr2 C 256) : Arr2 50000 256 :=
  fun i => max (((∑ k : Fin C, (agg (ix2 (i 0) k) * inv (ix2 (i 0) 0)) * Wl (ix2 k (i 1)))
      + ∑ k : Fin C, x (ix2 (i 0) k) * Wr (ix2 k (i 1))) + bl (ix1 (i 1))) 0

def layR {C : ℕ} (agg : Arr2 50000 C) (D : Arr1 50000) (x : Arr2 50000 C) (Wl : Arr2 C 256) (bl : Arr1 256)
    (Wr : Arr2 C 256) : Arr2 50000 256 :=
  fun i => max (((∑ k : Fin C, Ideal.div (agg (ix2 (i 0) k)) (D (ix1 (i 0))) * Wl (ix2 k (i 1)))
      + bl (ix1 (i 1))) + ∑ k : Fin C, x (ix2 (i 0) k) * Wr (ix2 k (i 1))) 0

def slab (W : (⟨3, ![4, 256, 256]⟩ : Shape).Idx → EReal) (k : Fin 4) : Arr2 256 256 := fun i => W (ix3 k (i 0) (i 1))

def row (B : Arr2 4 256) (k : Fin 4) : Arr1 256 := fun i => B (ix2 k (i 0))

def inGraph (b : Fin 50000 → BitVec 32) (n : Fin 50000) (g : ℕ) : Prop := (b n).toInt = (g : ℤ)

instance (b : Fin 50000 → BitVec 32) (n : Fin 50000) (g : ℕ) : Decidable (inGraph b n g) := by
  unfold inGraph; infer_instance

def poolOf (b : Fin 50000 → BitVec 32) (h : Arr2 50000 256) : Arr2 128 256 :=
  fun i => ∑ n : Fin 50000, if inGraph b n (i 0).val then h (ix2 n (i 1)) else 0

def cntOf (b : Fin 50000 → BitVec 32) : Fin 128 → EReal :=
  fun g => ∑ n : Fin 50000, if inGraph b n g.val then (1 : EReal) else 0

def logitsOf (P : Arr2 128 256) (cnt : Fin 128 → EReal) (Wo : Arr2 256 10) (bo : Arr1 10) : Arr2 128 10 :=
  fun i => (∑ c : Fin 256, Ideal.div (P (ix2 (i 0) c)) (max (cnt (i 0)) 1) * Wo (ix2 c (i 1))) + bo (ix1 (i 1))

def rowMax (z : Arr2 128 10) (g : Fin 128) : EReal := (Finset.univ : Finset (Fin 10)).fold max ⊥ fun o => z (ix2 g o)

def rowLse (z : Arr2 128 10) (g : Fin 128) : EReal :=
  Ideal.log (∑ o : Fin 10, Ideal.exp (z (ix2 g o) - rowMax z g))

def lsmK (z : Arr2 128 10) : Arr2 128 10 := fun i => z i - (rowMax z (i 0) + rowLse z (i 0))

def lsmR (z : Arr2 128 10) : Arr2 128 10 := fun i => (z i - rowMax z (i 0)) - rowLse z (i 0)

end Cert.Spec

end
-- ==== Proof.LibColumn.lean ====
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

section Layout
variable {α : Type}

theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

section Reductions
variable {φ : FTy}

theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.RefLib.lean ====
import proofs.«420935_j80238579024178_3_alg».proof.Proof.Gen.ReferenceIdeal
import proofs.«420935_j80238579024178_3_alg».proof.Proof.Spec
import proofs.«420935_j80238579024178_3_alg».proof.Proof.LibColumn
import Idealize.ShloMosaic.Lib.Pipeline.Value
import Idealize.ShloMosaic.Lib.ValueIdx
import Idealize.ShloMosaic.Lib.ValueIdxRank1
import Idealize.ShloMosaic.Lib.IdealHost
import Idealize.ShloMosaic.PureOps.Ideal.Laws

noncomputable section

open scoped BigOperators

namespace Cert.ReferenceIdeal.RefVal

open Cert.ReferenceIdeal Cert.ReferenceIdeal.Gen Idealize.ShloMosaic Idealize.ShloMosaic.ValueIdx

theorem lhs_dot256_0 (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
theorem lhs_dot256_1 (i : S50000x256.Idx) (q : dot_S50000x256_S256x256_S50000x256_1_0_0_1_n_n.contr.Idx) :
    (dot_S50000x256_S256x256_S50000x256_1_0_0_1_n_n.lhsIdx i q 1).val = (q ⟨0, by decide⟩).val :=
  dot_S50000x256_S256x256_S50000x256_1_0_0_1_n_n.lhsIdx_val_of_single rfl i q
theorem rhs_dot256_0 (i : S50000x256.Idx) (q : dot_S50000x256_S256x256_S50000x256_1_0_0_1_n_n.contr.Idx) :
    (dot_S50000x256_S256x256_S50000x256_1_0_0_1_n_n.rhsIdx i q 0).val = (q ⟨0, by decide⟩).val :=
  dot_S50000x256_S256x256_S50000x256_1_0_0_1_n_n.rhsIdx_val_of_single rfl i q
theorem rhs_dot256_1 (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

theorem dot256_apply (l : FVec Ideal S50000x256 .f32) (r : FVec Ideal S256x256 .f32) (n : Fin 50000) (j : Fin 256) :
    Host.dotGeneral (F := Ideal) dot_S50000x256_S256x256_S50000x256_1_0_0_1_n_n none l r (ix2 n j)
      = ∑ k : Fin 256, l (ix2 n k) * r (ix2 k j) := by
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx (ix2 n j) ((ValueIdx.contrEquiv1 dot_S50000x256_S256x256_S50000x256_1_0_0_1_n_n 256 rfl rfl).symm k) = ix2 n k := funext fun a => Fin.ext (by
    match a with
    | ⟨0, _⟩ => exact lhs_dot256_0 _ _
    | ⟨1, _⟩ => exact (lhs_dot256_1 _ _).trans hk)
  have er : dot_S50000x256_S256x256_S50000x256_1_0_0_1_n_n.rhsIdx (ix2 n j) ((ValueIdx.contrEquiv1 dot_S50000x256_S256x256_S50000x256_1_0_0_1_n_n 256 rfl rfl).symm k) = ix2 k j := funext fun a => Fin.ext (by
    match a with
    | ⟨0, _⟩ => exact (rhs_dot256_0 _ _).trans hk
    | ⟨1, _⟩ => exact rhs_dot256_1 _ _)
  rw [el, er]

theorem lhs_dot128_0 (i : S50000x256.Idx) (q : dot_S50000x128_S128x256_S50000x256_1_0_0_1_n_n.contr.Idx) :
    (dot_S50000x128_S128x256_S50000x256_1_0_0_1_n_n.lhsIdx i q 0).val = (i 0).val := by
  unfold DotDims.lhsIdx
  rw [dif_neg (show ¬(0 : Fin S50000x128.rank) ∈ dot_S50000x128_S128x256_S50000x256_1_0_0_1_n_n.lhsBatch by decide), dif_pos (show (0 : Fin S50000x128.rank) ∈ dot_S50000x128_S128x256_S50000x256_1_0_0_1_n_n.lhsNonContracting by decide)]
  rfl
theorem lhs_dot128_1 (i : S50000x256.Idx) (q : dot_S50000x128_S128x256_S50000x256_1_0_0_1_n_n.contr.Idx) :
    (dot_S50000x128_S128x256_S50000x256_1_0_0_1_n_n.lhsIdx i q 1).val = (q ⟨0, by decide⟩).val :=
  dot_S50000x128_S128x256_S50000x256_1_0_0_1_n_n.lhsIdx_val_of_single rfl i q
theorem rhs_dot128_0 (i : S50000x256.Idx) (q : dot_S50000x128_S128x256_S50000x256_1_0_0_1_n_n.contr.Idx) :
    (dot_S50000x128_S128x256_S50000x256_1_0_0_1_n_n.rhsIdx i q 0).val = (q ⟨0, by decide⟩).val :=
  dot_S50000x128_S128x256_S50000x256_1_0_0_1_n_n.rhsIdx_val_of_single rfl i q
theorem rhs_dot128_1 (i : S50000x256.Idx) (q : dot_S50000x128_S128x256_S50000x256_1_0_0_1_n_n.contr.Idx) :
    (dot_S50000x128_S128x256_S50000x256_1_0_0_1_n_n.rhsIdx i q 1).val = (i 1).val := by
  unfold DotDims.rhsIdx
  rw [dif_neg (show ¬(1 : Fin S128x256.rank) ∈ dot_S50000x128_S128x256_S50000x256_1_0_0_1_n_n.rhsBatch by decide), dif_pos (show (1 : Fin S128x256.rank) ∈ dot_S50000x128_S128x256_S50000x256_1_0_0_1_n_n.rhsNonContracting by decide)]
  rfl

theorem dot128_apply (l : FVec Ideal S50000x128 .f32) (r : FVec Ideal S128x256 .f32) (n : Fin 50000) (j : Fin 256) :
    Host.dotGeneral (F := Ideal) dot_S50000x128_S128x256_S50000x256_1_0_0_1_n_n none l r (ix2 n j)
      = ∑ k : Fin 128, l (ix2 n k) * r (ix2 k j) := by
  simp only [Host.dotGeneral]
  rw [Ideal.dotGeneral_apply, ← Equiv.sum_comp (ValueIdx.contrEquiv1 dot_S50000x128_S128x256_S50000x256_1_0_0_1_n_n 128 rfl rfl).symm]
  refine Finset.sum_congr rfl fun k _ => ?_
  have hk := ValueIdx.contrEquiv1_symm_val dot_S50000x128_S128x256_S50000x256_1_0_0_1_n_n 128 rfl rfl k
  have el : dot_S50000x128_S128x256_S50000x256_1_0_0_1_n_n.lhsIdx (ix2 n j) ((ValueIdx.contrEquiv1 dot_S50000x128_S128x256_S50000x256_1_0_0_1_n_n 128 rfl rfl).symm k) = ix2 n k := funext fun a => Fin.ext (by
    match a with
    | ⟨0, _⟩ => exact lhs_dot128_0 _ _
    | ⟨1, _⟩ => exact (lhs_dot128_1 _ _).trans hk)
  have er : dot_S50000x128_S128x256_S50000x256_1_0_0_1_n_n.rhsIdx (ix2 n j) ((ValueIdx.contrEquiv1 dot_S50000x128_S128x256_S50000x256_1_0_0_1_n_n 128 rfl rfl).symm k) = ix2 k j := funext fun a => Fin.ext (by
    match a with
    | ⟨0, _⟩ => exact (rhs_dot128_0 _ _).trans hk
    | ⟨1, _⟩ => exact rhs_dot128_1 _ _)
  rw [el, er]

theorem biasB_apply (bl : FVec Ideal S256 .f32) (n : Fin 50000) (j : Fin 256) :
    broadcastInDim S50000x256 ![0, 1] bcast_S1x256_S50000x256_0_1 (broadcastInDim S1x256 ![1] bcast_S256_S1x256_1 bl) (ix2 n j)
      = bl (ix1 j) := by
  rw [broadcastInDim_apply _ bcast_S1x256_S50000x256_0_1 _ (ix2 n j) (ix2 (0 : Fin 1) j) (fun a => match a with
    | ⟨0, _⟩ => by show 0 = if (1 : Nat) = 1 then 0 else n.val; rw [if_pos rfl]
    | ⟨1, _⟩ => by show j.val = if (256 : Nat) = 1 then 0 else j.val; rw [if_neg (by decide)])]
  exact broadcastInDim_apply _ bcast_S256_S1x256_1 bl (ix2 (0 : Fin 1) j) (ix1 j) (fun a => match a with
    | ⟨0, _⟩ => by show j.val = if (256 : Nat) = 1 then 0 else j.val; rw [if_neg (by decide)])

theorem nodeB256_apply (D : FVec Ideal S50000 .f32) (n : Fin 50000) (k : Fin 256) :
    broadcastInDim S50000x256 ![0, 1] bcast_S50000x1_S50000x256_0_1 (broadcastInDim S50000x1 ![0] bcast_S50000_S50000x1_0 D) (ix2 n k)
      = D (ix1 n) := by
  rw [broadcastInDim_apply _ bcast_S50000x1_S50000x256_0_1 _ (ix2 n k) (ix2 n (0 : Fin 1)) (fun a => match a with
    | ⟨0, _⟩ => by show n.val = if (50000 : Nat) = 1 then 0 else n.val; rw [if_neg (by decide)]
    | ⟨1, _⟩ => by show 0 = if (1 : Nat) = 1 then 0 else k.val; rw [if_pos rfl])]
  exact broadcastInDim_apply _ bcast_S50000_S50000x1_0 D (ix2 n (0 : Fin 1)) (ix1 n) (fun a => match a with
    | ⟨0, _⟩ => by show n.val = if (50000 : Nat) = 1 then 0 else n.val; rw [if_neg (by decide)])

theorem nodeB128_apply (D : FVec Ideal S50000 .f32) (n : Fin 50000) (k : Fin 128) :
    broadcastInDim S50000x128 ![0, 1] bcast_S50000x1_S50000x128_0_1 (broadcastInDim S50000x1 ![0] bcast_S50000_S50000x1_0 D) (ix2 n k)
      = D (ix1 n) := by
  rw [broadcastInDim_apply _ bcast_S50000x1_S50000x128_0_1 _ (ix2 n k) (ix2 n (0 : Fin 1)) (fun a => match a with
    | ⟨0, _⟩ => by show n.val = if (50000 : Nat) = 1 then 0 else n.val; rw [if_neg (by decide)]
    | ⟨1, _⟩ => by show 0 = if (1 : Nat) = 1 then 0 else k.val; rw [if_pos rfl])]
  exact broadcastInDim_apply _ bcast_S50000_S50000x1_0 D (ix2 n (0 : Fin 1)) (ix1 n) (fun a => match a with
    | ⟨0, _⟩ => by show n.val = if (50000 : Nat) = 1 then 0 else n.val; rw [if_neg (by decide)])

theorem zeroB256_apply (i : S50000x256.Idx) :
    broadcastInDim S50000x256 ![] bcast_S_S50000x256 (constant (F := Ideal) S_ .f32 0x00000000#32) i = 0 := by
  rw [broadcastInDim_scalar_apply, constant_apply, Ideal.ofBits_zero_f32]

theorem layer256_eq (agg h : FVec Ideal S50000x256 .f32) (D : FVec Ideal S50000 .f32) (Wl Wr : FVec Ideal S256x256 .f32)
    (bl : FVec Ideal S256 .f32) :
    maximumf (addf (addf
        (Host.dotGeneral (F := Ideal) dot_S50000x256_S256x256_S50000x256_1_0_0_1_n_n none
          (Host.divf (F := Ideal) agg (broadcastInDim S50000x256 ![0, 1] bcast_S50000x1_S50000x256_0_1
            (broadcastInDim S50000x1 ![0] bcast_S50000_S50000x1_0 D))) Wl)
        (broadcastInDim S50000x256 ![0, 1] bcast_S1x256_S50000x256_0_1 (broadcastInDim S1x256 ![1] bcast_S256_S1x256_1 bl)))
        (Host.dotGeneral (F := Ideal) dot_S50000x256_S256x256_S50000x256_1_0_0_1_n_n none h Wr))
      (broadcastInDim S50000x256 ![] bcast_S_S50000x256 (constant (F := Ideal) S_ .f32 0x00000000#32))
      = Spec.layR agg D h Wl bl Wr := by
  funext i
  obtain ⟨n, j, rfl⟩ : ∃ (n : Fin 50000) (j : Fin 256), i = ix2 n j := ⟨i 0, i 1, eq_ix2 i⟩
  rw [maximumf_apply, addf_apply, addf_apply, dot256_apply, dot256_apply, biasB_apply, zeroB256_apply]
  unfold Spec.layR
  refine congrArg (fun t => max ((t + bl (ix1 j)) + ∑ k : Fin 256, h (ix2 n k) * Wr (ix2 k j)) 0) ?_
  refine Finset.sum_congr rfl fun k _ => ?_
  rw [hostDivf_apply, nodeB256_apply]

theorem layer128_eq (agg x : FVec Ideal S50000x128 .f32) (D : FVec Ideal S50000 .f32) (Wl Wr : FVec Ideal S128x256 .f32)
    (bl : FVec Ideal S256 .f32) :
    maximumf (addf (addf
        (Host.dotGeneral (F := Ideal) dot_S50000x128_S128x256_S50000x256_1_0_0_1_n_n none
          (Host.divf (F := Ideal) agg (broadcastInDim S50000x128 ![0, 1] bcast_S50000x1_S50000x128_0_1
            (broadcastInDim S50000x1 ![0] bcast_S50000_S50000x1_0 D))) Wl)
        (broadcastInDim S50000x256 ![0, 1] bcast_S1x256_S50000x256_0_1 (broadcastInDim S1x256 ![1] bcast_S256_S1x256_1 bl)))
        (Host.dotGeneral (F := Ideal) dot_S50000x128_S128x256_S50000x256_1_0_0_1_n_n none x Wr))
      (broadcastInDim S50000x256 ![] bcast_S_S50000x256 (constant (F := Ideal) S_ .f32 0x00000000#32))
      = Spec.layR agg D x Wl bl Wr := by
  funext i
  obtain ⟨n, j, rfl⟩ : ∃ (n : Fin 50000) (j : Fin 256), i = ix2 n j := ⟨i 0, i 1, eq_ix2 i⟩
  rw [maximumf_apply, addf_apply, addf_apply, dot128_apply, dot128_apply, biasB_apply, zeroB256_apply]
  unfold Spec.layR
  refine congrArg (fun t => max ((t + bl (ix1 j)) + ∑ k : Fin 128, x (ix2 n k) * Wr (ix2 k j)) 0) ?_
  refine Finset.sum_congr rfl fun k _ => ?_
  rw [hostDivf_apply, nodeB128_apply]

theorem pool_start0 (n : Fin 50000) (col : Fin 256) (idx : IVec S50000x1 32) :
    scatter_S128x256_S50000x1_S50000x256_1_0_0_1.start (ix2 n col) idx 0 = (idx (ix2 n (0 : Fin 1))).toInt := by
  unfold ScatterDims.start
  rw [dif_pos (show (0 : Fin S128x256.rank) ∈ scatter_S128x256_S50000x1_S50000x256_1_0_0_1.scatterDimsToOperandDims by decide)]
  refine congrArg (fun k => (idx k).toInt) (funext fun b => Fin.ext ?_)
  match b with
  | ⟨0, _⟩ => rfl
  | ⟨1, _⟩ => rfl

theorem pool_start1 (n : Fin 50000) (col : Fin 256) (idx : IVec S50000x1 32) :
    scatter_S128x256_S50000x1_S50000x256_1_0_0_1.start (ix2 n col) idx 1 = 0 := by
  unfold ScatterDims.start
  rw [dif_neg (show ¬ (1 : Fin S128x256.rank) ∈ scatter_S128x256_S50000x1_S50000x256_1_0_0_1.scatterDimsToOperandDims by decide)]

theorem pool_window0 (n : Fin 50000) (col : Fin 256) :
    scatter_S128x256_S50000x1_S50000x256_1_0_0_1.window (ix2 n col) 0 = 0 := by
  unfold ScatterDims.window
  rw [dif_neg (show ¬ (0 : Fin S128x256.rank) ∈ scatter_S128x256_S50000x1_S50000x256_1_0_0_1.sKept by decide)]

theorem pool_window1 (n : Fin 50000) (col : Fin 256) :
    scatter_S128x256_S50000x1_S50000x256_1_0_0_1.window (ix2 n col) 1 = col.val := by
  unfold ScatterDims.window
  rw [dif_pos (show (1 : Fin S128x256.rank) ∈ scatter_S128x256_S50000x1_S50000x256_1_0_0_1.sKept by decide)]
  rfl

theorem pool_lands (n : Fin 50000) (col : Fin 256) (idx : IVec S50000x1 32) (g : Fin 128) (c : Fin 256) :
    scatter_S128x256_S50000x1_S50000x256_1_0_0_1.resultIdx? (ix2 n col) idx = some (ix2 g c)
      ↔ (idx (ix2 n (0 : Fin 1))).toInt = (g.val : ℤ) ∧ col = c := by
  have s0 := pool_start0 n col idx
  have s1 := pool_start1 n col idx
  have w0 := pool_window0 n col
  have w1 := pool_window1 n col
  have hg : g.val < 128 := g.isLt
  have hc : c.val < 256 := c.isLt
  have hcol : col.val < 256 := col.isLt
  unfold ScatterDims.resultIdx?
  split
  · rename_i h
    constructor
    · intro e
      have e' := Option.some.inj e
      have e0 : (scatter_S128x256_S50000x1_S50000x256_1_0_0_1.start (ix2 n col) idx 0
          + scatter_S128x256_S50000x1_S50000x256_1_0_0_1.window (ix2 n col) 0).toNat = g.val :=
        congrArg (fun f : S128x256.Idx => (f 0).val) e'
      have e1 : (scatter_S128x256_S50000x1_S50000x256_1_0_0_1.start (ix2 n col) idx 1
          + scatter_S128x256_S50000x1_S50000x256_1_0_0_1.window (ix2 n col) 1).toNat = c.val :=
        congrArg (fun f : S128x256.Idx => (f 1).val) e'
      have h0 := (h 0).1
      rw [s0, w0] at e0 h0
      rw [s1, w1] at e1
      exact ⟨by omega, Fin.ext (by omega)⟩
    · rintro ⟨e0, e1⟩
      refine congrArg some (funext fun a => Fin.ext ?_)
      match a with
      | ⟨0, _⟩ =>
        show (scatter_S128x256_S50000x1_S50000x256_1_0_0_1.start (ix2 n col) idx 0
          + scatter_S128x256_S50000x1_S50000x256_1_0_0_1.window (ix2 n col) 0).toNat = g.val
        rw [s0, w0]; omega
      | ⟨1, _⟩ =>
        show (scatter_S128x256_S50000x1_S50000x256_1_0_0_1.start (ix2 n col) idx 1
          + scatter_S128x256_S50000x1_S50000x256_1_0_0_1.window (ix2 n col) 1).toNat = c.val
        rw [s1, w1, e1]; omega
  · rename_i h
    constructor
    · intro e; cases e
    · rintro ⟨e0, e1⟩
      exfalso
      apply h
      intro a
      match a with
      | ⟨0, _⟩ =>
        show 0 ≤ scatter_S128x256_S50000x1_S50000x256_1_0_0_1.start (ix2 n col) idx 0
            + scatter_S128x256_S50000x1_S50000x256_1_0_0_1.window (ix2 n col) 0
          ∧ scatter_S128x256_S50000x1_S50000x256_1_0_0_1.start (ix2 n col) idx 0
            + scatter_S128x256_S50000x1_S50000x256_1_0_0_1.window (ix2 n col) 0 < (128 : ℕ)
        rw [s0, w0]; omega
      | ⟨1, _⟩ =>
        show 0 ≤ scatter_S128x256_S50000x1_S50000x256_1_0_0_1.start (ix2 n col) idx 1
            + scatter_S128x256_S50000x1_S50000x256_1_0_0_1.window (ix2 n col) 1
          ∧ scatter_S128x256_S50000x1_S50000x256_1_0_0_1.start (ix2 n col) idx 1
            + scatter_S128x256_S50000x1_S50000x256_1_0_0_1.window (ix2 n col) 1 < (256 : ℕ)
        rw [s1, w1]; omega

theorem labelCol_apply (b : IVec S50000 32) (n : Fin 50000) :
    broadcastInDim S50000x1 ![0] bcast_S50000_S50000x1_0 b (ix2 n (0 : Fin 1)) = b (ix1 n) :=
  broadcastInDim_apply _ bcast_S50000_S50000x1_0 b (ix2 n (0 : Fin 1)) (ix1 n) (fun a => match a with
    | ⟨0, _⟩ => by show n.val = if (50000 : Nat) = 1 then 0 else n.val; rw [if_neg (by decide)])

theorem pool_eq (b : IVec S50000 32) (h : FVec Ideal S50000x256 .f32) :
    Host.scatterAdd (F := Ideal) scatter_S128x256_S50000x1_S50000x256_1_0_0_1
        (broadcastInDim S128x256 ![] bcast_S_S128x256 (constant (F := Ideal) S_ .f32 0x00000000#32))
        (broadcastInDim S50000x1 ![0] bcast_S50000_S50000x1_0 b) h
      = Spec.poolOf (fun n => b (ix1 n)) h := by
  funext i
  obtain ⟨g, c, rfl⟩ : ∃ (g : Fin 128) (c : Fin 256), i = ix2 g c := ⟨i 0, i 1, eq_ix2 i⟩
  show Ideal.hostScatterAdd scatter_S128x256_S50000x1_S50000x256_1_0_0_1 _ _ h (ix2 g c) = _
  unfold Ideal.hostScatterAdd
  rw [broadcastInDim_scalar_apply, constant_apply, Ideal.ofBits_zero_f32, zero_add, Finset.sum_filter, sum_idx2]
  show _ = ∑ n : Fin 50000, if Spec.inGraph (fun n => b (ix1 n)) n g.val then h (ix2 n c) else 0
  refine Finset.sum_congr rfl fun n _ => ?_
  have hl := fun col : Fin 256 => pool_lands n col (broadcastInDim S50000x1 ![0] bcast_S50000_S50000x1_0 b) g c
  rw [labelCol_apply] at hl
  by_cases hg : Spec.inGraph (fun n => b (ix1 n)) n g.val
  · rw [if_pos hg, Finset.sum_eq_single c]
    · rw [if_pos ((hl c).2 ⟨hg, rfl⟩)]
    · intro col _ hne; rw [if_neg (fun e => hne ((hl col).1 e).2)]
    · intro hc; exact absurd (Finset.mem_univ c) hc
  · rw [if_neg hg]
    refine Finset.sum_eq_zero fun col _ => ?_
    rw [if_neg (fun e => hg ((hl col).1 e).1)]

theorem cnt_start0 (n : Fin 50000) (idx : IVec S50000x1 32) :
    scatter_S128_S50000x1_S50000_n_0_0_1.start (ix1 n) idx 0 = (idx (ix2 n (0 : Fin 1))).toInt := by
  unfold ScatterDims.start
  rw [dif_pos (show (0 : Fin S128.rank) ∈ scatter_S128_S50000x1_S50000_n_0_0_1.scatterDimsToOperandDims by decide)]
  refine congrArg (fun k => (idx k).toInt) (funext fun b => Fin.ext ?_)
  match b with
  | ⟨0, _⟩ => rfl
  | ⟨1, _⟩ => rfl

theorem cnt_window0 (n : Fin 50000) :
    scatter_S128_S50000x1_S50000_n_0_0_1.window (ix1 n) 0 = 0 := by
  unfold ScatterDims.window
  rw [dif_neg (show ¬ (0 : Fin S128.rank) ∈ scatter_S128_S50000x1_S50000_n_0_0_1.sKept by decide)]

theorem cnt_lands (n : Fin 50000) (idx : IVec S50000x1 32) (g : Fin 128) :
    scatter_S128_S50000x1_S50000_n_0_0_1.resultIdx? (ix1 n) idx = some (ix1 g)
      ↔ (idx (ix2 n (0 : Fin 1))).toInt = (g.val : ℤ) := by
  have s0 := cnt_start0 n idx
  have w0 := cnt_window0 n
  have hg : g.val < 128 := g.isLt
  unfold ScatterDims.resultIdx?
  split
  · rename_i h
    constructor
    · intro e
      have e0 : (scatter_S128_S50000x1_S50000_n_0_0_1.start (ix1 n) idx 0
          + scatter_S128_S50000x1_S50000_n_0_0_1.window (ix1 n) 0).toNat = g.val :=
        congrArg (fun f : S128.Idx => (f 0).val) (Option.some.inj e)
      have h0 := (h 0).1
      rw [s0, w0] at e0 h0
      omega
    · intro e0
      refine congrArg some (funext fun a => Fin.ext ?_)
      match a with
      | ⟨0, _⟩ =>
        show (scatter_S128_S50000x1_S50000_n_0_0_1.start (ix1 n) idx 0
          + scatter_S128_S50000x1_S50000_n_0_0_1.window (ix1 n) 0).toNat = g.val
        rw [s0, w0]; omega
  · rename_i h
    constructor
    · intro e; cases e
    · intro e0
      exfalso
      apply h
      intro a
      match a with
      | ⟨0, _⟩ =>
        show 0 ≤ scatter_S128_S50000x1_S50000_n_0_0_1.start (ix1 n) idx 0
            + scatter_S128_S50000x1_S50000_n_0_0_1.window (ix1 n) 0
          ∧ scatter_S128_S50000x1_S50000_n_0_0_1.start (ix1 n) idx 0
            + scatter_S128_S50000x1_S50000_n_0_0_1.window (ix1 n) 0 < (128 : ℕ)
        rw [s0, w0]; omega

theorem cnt_eq (b : IVec S50000 32) (g : Fin 128) :
    Host.scatterAdd (F := Ideal) scatter_S128_S50000x1_S50000_n_0_0_1
        (broadcastInDim S128 ![] bcast_S_S128 (constant (F := Ideal) S_ .f32 0x00000000#32))
        (broadcastInDim S50000x1 ![0] bcast_S50000_S50000x1_0 b)
        (broadcastInDim S50000 ![] bcast_S_S50000 (constant (F := Ideal) S_ .f32 0x3F800000#32)) (ix1 g)
      = Spec.cntOf (fun n => b (ix1 n)) g := by
  show Ideal.hostScatterAdd scatter_S128_S50000x1_S50000_n_0_0_1 _ _ _ (ix1 g) = _
  unfold Ideal.hostScatterAdd
  rw [broadcastInDim_scalar_apply, constant_apply, Ideal.ofBits_zero_f32, zero_add, Finset.sum_filter,
    ← Equiv.sum_comp (idxEquiv1 (n := 50000)).symm]
  show _ = ∑ n : Fin 50000, if Spec.inGraph (fun n => b (ix1 n)) n g.val then (1 : EReal) else 0
  refine Finset.sum_congr rfl fun n _ => ?_
  show (if scatter_S128_S50000x1_S50000_n_0_0_1.resultIdx? (ix1 n) _ = some (ix1 g) then _ else 0) = _
  have hl := cnt_lands n (broadcastInDim S50000x1 ![0] bcast_S50000_S50000x1_0 b) g
  rw [labelCol_apply] at hl
  rw [broadcastInDim_scalar_apply, constant_apply, Ideal.ofBits_one_f32]
  by_cases hg : Spec.inGraph (fun n => b (ix1 n)) n g.val
  · rw [if_pos hg, if_pos (hl.2 hg)]
  · rw [if_neg hg, if_neg (fun e => hg (hl.1 e))]

theorem lhs_dotHead_0 (i : S128x10.Idx) (q : dot_S128x256_S256x10_S128x10_1_0_0_1_n_n.contr.Idx) :
    (dot_S128x256_S256x10_S128x10_1_0_0_1_n_n.lhsIdx i q 0).val = (i 0).val := by
  unfold DotDims.lhsIdx
  rw [dif_neg (show ¬(0 : Fin S128x256.rank) ∈ dot_S128x256_S256x10_S128x10_1_0_0_1_n_n.lhsBatch by decide), dif_pos (show (0 : Fin S128x256.rank) ∈ dot_S128x256_S256x10_S128x10_1_0_0_1_n_n.lhsNonContracting by decide)]
  rfl
theorem lhs_dotHead_1 (i : S128x10.Idx) (q : dot_S128x256_S256x10_S128x10_1_0_0_1_n_n.contr.Idx) :
    (dot_S128x256_S256x10_S128x10_1_0_0_1_n_n.lhsIdx i q 1).val = (q ⟨0, by decide⟩).val :=
  dot_S128x256_S256x10_S128x10_1_0_0_1_n_n.lhsIdx_val_of_single rfl i q
theorem rhs_dotHead_0 (i : S128x10.Idx) (q : dot_S128x256_S256x10_S128x10_1_0_0_1_n_n.contr.Idx) :
    (dot_S128x256_S256x10_S128x10_1_0_0_1_n_n.rhsIdx i q 0).val = (q ⟨0, by decide⟩).val :=
  dot_S128x256_S256x10_S128x10_1_0_0_1_n_n.rhsIdx_val_of_single rfl i q
theorem rhs_dotHead_1 (i : S128x10.Idx) (q : dot_S128x256_S256x10_S128x10_1_0_0_1_n_n.contr.Idx) :
    (dot_S128x256_S256x10_S128x10_1_0_0_1_n_n.rhsIdx i q 1).val = (i 1).val := by
  unfold DotDims.rhsIdx
  rw [dif_neg (show ¬(1 : Fin S256x10.rank) ∈ dot_S128x256_S256x10_S128x10_1_0_0_1_n_n.rhsBatch by decide), dif_pos (show (1 : Fin S256x10.rank) ∈ dot_S128x256_S256x10_S128x10_1_0_0_1_n_n.rhsNonContracting by decide)]
  rfl

theorem dotHead_apply (l : FVec Ideal S128x256 .f32) (r : FVec Ideal S256x10 .f32) (g : Fin 128) (o : Fin 10) :
    Host.dotGeneral (F := Ideal) dot_S128x256_S256x10_S128x10_1_0_0_1_n_n none l r (ix2 g o)
      = ∑ k : Fin 256, l (ix2 g k) * r (ix2 k o) := by
  simp only [Host.dotGeneral]
  rw [Ideal.dotGeneral_apply, ← Equiv.sum_comp (ValueIdx.contrEquiv1 dot_S128x256_S256x10_S128x10_1_0_0_1_n_n 256 rfl rfl).symm]
  refine Finset.sum_congr rfl fun k _ => ?_
  have hk := ValueIdx.contrEquiv1_symm_val dot_S128x256_S256x10_S128x10_1_0_0_1_n_n 256 rfl rfl k
  have el : dot_S128x256_S256x10_S128x10_1_0_0_1_n_n.lhsIdx (ix2 g o) ((ValueIdx.contrEquiv1 dot_S128x256_S256x10_S128x10_1_0_0_1_n_n 256 rfl rfl).symm k) = ix2 g k := funext fun a => Fin.ext (by
    match a with
    | ⟨0, _⟩ => exact lhs_dotHead_0 _ _
    | ⟨1, _⟩ => exact (lhs_dotHead_1 _ _).trans hk)
  have er : dot_S128x256_S256x10_S128x10_1_0_0_1_n_n.rhsIdx (ix2 g o) ((ValueIdx.contrEquiv1 dot_S128x256_S256x10_S128x10_1_0_0_1_n_n 256 rfl rfl).symm k) = ix2 k o := funext fun a => Fin.ext (by
    match a with
    | ⟨0, _⟩ => exact (rhs_dotHead_0 _ _).trans hk
    | ⟨1, _⟩ => exact rhs_dotHead_1 _ _)
  rw [el, er]

theorem graphB256_apply (v : FVec Ideal S128 .f32) (g : Fin 128) (c : Fin 256) :
    broadcastInDim S128x256 ![0, 1] bcast_S128x1_S128x256_0_1 (broadcastInDim S128x1 ![0] bcast_S128_S128x1_0 v) (ix2 g c)
      = v (ix1 g) := by
  rw [broadcastInDim_apply _ bcast_S128x1_S128x256_0_1 _ (ix2 g c) (ix2 g (0 : Fin 1)) (fun a => match a with
    | ⟨0, _⟩ => by show g.val = if (128 : Nat) = 1 then 0 else g.val; rw [if_neg (by decide)]
    | ⟨1, _⟩ => by show 0 = if (1 : Nat) = 1 then 0 else c.val; rw [if_pos rfl])]
  exact broadcastInDim_apply _ bcast_S128_S128x1_0 v (ix2 g (0 : Fin 1)) (ix1 g) (fun a => match a with
    | ⟨0, _⟩ => by show g.val = if (128 : Nat) = 1 then 0 else g.val; rw [if_neg (by decide)])

theorem graphCol_apply (v : FVec Ideal S128 .f32) (g : Fin 128) :
    broadcastInDim S128x1 ![0] bcast_S128_S128x1_0 v (ix2 g (0 : Fin 1)) = v (ix1 g) :=
  broadcastInDim_apply _ bcast_S128_S128x1_0 v (ix2 g (0 : Fin 1)) (ix1 g) (fun a => match a with
    | ⟨0, _⟩ => by show g.val = if (128 : Nat) = 1 then 0 else g.val; rw [if_neg (by decide)])

theorem colB10_apply (v : FVec Ideal S128x1 .f32) (g : Fin 128) (o : Fin 10) :
    broadcastInDim S128x10 ![0, 1] bcast_S128x1_S128x10_0_1 v (ix2 g o) = v (ix2 g (0 : Fin 1)) :=
  broadcastInDim_apply _ bcast_S128x1_S128x10_0_1 v (ix2 g o) (ix2 g (0 : Fin 1)) (fun a => match a with
    | ⟨0, _⟩ => by show g.val = if (128 : Nat) = 1 then 0 else g.val; rw [if_neg (by decide)]
    | ⟨1, _⟩ => by show 0 = if (1 : Nat) = 1 then 0 else o.val; rw [if_pos rfl])

theorem biasB10_apply (bo : FVec Ideal S10 .f32) (g : Fin 128) (o : Fin 10) :
    broadcastInDim S128x10 ![0, 1] bcast_S1x10_S128x10_0_1 (broadcastInDim S1x10 ![1] bcast_S10_S1x10_1 bo) (ix2 g o)
      = bo (ix1 o) := by
  rw [broadcastInDim_apply _ bcast_S1x10_S128x10_0_1 _ (ix2 g o) (ix2 (0 : Fin 1) o) (fun a => match a with
    | ⟨0, _⟩ => by show 0 = if (1 : Nat) = 1 then 0 else g.val; rw [if_pos rfl]
    | ⟨1, _⟩ => by show o.val = if (10 : Nat) = 1 then 0 else o.val; rw [if_neg (by decide)])]
  exact broadcastInDim_apply _ bcast_S10_S1x10_1 bo (ix2 (0 : Fin 1) o) (ix1 o) (fun a => match a with
    | ⟨0, _⟩ => by show o.val = if (10 : Nat) = 1 then 0 else o.val; rw [if_neg (by decide)])

theorem logits_eq (P : FVec Ideal S128x256 .f32) (cnt : FVec Ideal S128 .f32) (Wo : FVec Ideal S256x10 .f32)
    (bo : FVec Ideal S10 .f32) :
    addf (Host.dotGeneral (F := Ideal) dot_S128x256_S256x10_S128x10_1_0_0_1_n_n none
        (Host.divf (F := Ideal) P (broadcastInDim S128x256 ![0, 1] bcast_S128x1_S128x256_0_1
          (broadcastInDim S128x1 ![0] bcast_S128_S128x1_0
            (maximumf cnt (broadcastInDim S128 ![] bcast_S_S128 (constant (F := Ideal) S_ .f32 0x3F800000#32)))))) Wo)
      (broadcastInDim S128x10 ![0, 1] bcast_S1x10_S128x10_0_1 (broadcastInDim S1x10 ![1] bcast_S10_S1x10_1 bo))
      = Spec.logitsOf P (fun g => cnt (ix1 g)) Wo bo := by
  funext i
  obtain ⟨g, o, rfl⟩ : ∃ (g : Fin 128) (o : Fin 10), i = ix2 g o := ⟨i 0, i 1, eq_ix2 i⟩
  rw [addf_apply, dotHead_apply, biasB10_apply]
  unfold Spec.logitsOf
  refine congrArg (fun t => t + bo (ix1 o)) ?_
  refine Finset.sum_congr rfl fun c _ => ?_
  rw [hostDivf_apply, graphB256_apply, maximumf_apply, broadcastInDim_scalar_apply, constant_apply, Ideal.ofBits_one_f32]

theorem ofBits_neg_inf_f32 : Ideal.ofBits .f32 0xFF800000#32 = (⊥ : EReal) := by simp [Ideal.ofBits, Ideal.ieee]

theorem rowMaxT_apply (z : FVec Ideal S128x10 .f32) (g : Fin 128) :
    maximumf (broadcastInDim S128 ![] bcast_S_S128 (constant (F := Ideal) S_ .f32 0xFF800000#32))
        (Host.reduce FloatOps.maximumf z (constant (F := Ideal) S_ .f32 0xFF800000#32) reducesTo_S128x10_S128_d1 h_S_) (ix1 g)
      = Spec.rowMax z g := by
  rw [maximumf_apply, broadcastInDim_scalar_apply, constant_apply,
    Cert.LibColumn.hostMaxAxis1_apply z _ reducesTo_S128x10_S128_d1 (by decide) h_S_ g, constant_apply, ofBits_neg_inf_f32]
  exact max_eq_right bot_le

theorem rowSumT_apply (y : FVec Ideal S128x10 .f32) (g : Fin 128) :
    Host.reduceAdd (F := Ideal) y (constant (F := Ideal) S_ .f32 0x00000000#32) reducesTo_S128x10_S128_d1 h_S_ (ix1 g)
      = ∑ o : Fin 10, y (ix2 g o) := by
  rw [hostReduceAdd_apply, Ideal.hostReduceAdd_single reducesTo_S128x10_S128_d1 (by decide), constant_apply,
    Ideal.ofBits_zero_f32, zero_add]
  refine Finset.sum_congr rfl fun k _ => ?_
  exact congrArg y (funext fun a => Fin.ext (by match a with | ⟨0, _⟩ => rfl | ⟨1, _⟩ => rfl))

theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl

theorem lsm_eq (z : FVec Ideal S128x10 .f32) :
    subf
      (subf z (broadcastInDim S128x10 ![0, 1] bcast_S128x1_S128x10_0_1 (broadcastInDim S128x1 ![0] bcast_S128_S128x1_0
        (maximumf (broadcastInDim S128 ![] bcast_S_S128 (constant (F := Ideal) S_ .f32 0xFF800000#32))
          (Host.reduce FloatOps.maximumf z (constant (F := Ideal) S_ .f32 0xFF800000#32) reducesTo_S128x10_S128_d1 h_S_)))))
      (broadcastInDim S128x10 ![0, 1] bcast_S128x1_S128x10_0_1 (Host.log (F := Ideal) (broadcastInDim S128x1 ![0] bcast_S128_S128x1_0
        (Host.reduceAdd (F := Ideal) (Host.exp (F := Ideal)
          (subf z (broadcastInDim S128x10 ![0, 1] bcast_S128x1_S128x10_0_1 (broadcastInDim S128x1 ![0] bcast_S128_S128x1_0
            (maximumf (broadcastInDim S128 ![] bcast_S_S128 (constant (F := Ideal) S_ .f32 0xFF800000#32))
              (Host.reduce FloatOps.maximumf z (constant (F := Ideal) S_ .f32 0xFF800000#32) reducesTo_S128x10_S128_d1 h_S_))))))
          (constant (F := Ideal) S_ .f32 0x00000000#32) reducesTo_S128x10_S128_d1 h_S_))))
      = Spec.lsmR z := by
  have hsh : ∀ (g : Fin 128) (o : Fin 10),
      subf z (broadcastInDim S128x10 ![0, 1] bcast_S128x1_S128x10_0_1 (broadcastInDim S128x1 ![0] bcast_S128_S128x1_0
        (maximumf (broadcastInDim S128 ![] bcast_S_S128 (constant (F := Ideal) S_ .f32 0xFF800000#32))
          (Host.reduce FloatOps.maximumf z (constant (F := Ideal) S_ .f32 0xFF800000#32) reducesTo_S128x10_S128_d1 h_S_)))) (ix2 g o)
        = z (ix2 g o) - Spec.rowMax z g := fun g o => by
    rw [subf_apply, colB10_apply, graphCol_apply, rowMaxT_apply]
  funext i
  obtain ⟨g, o, rfl⟩ : ∃ (g : Fin 128) (o : Fin 10), i = ix2 g o := ⟨i 0, i 1, eq_ix2 i⟩
  rw [subf_apply, hsh, colB10_apply]
  rw [hostLog_apply, graphCol_apply, rowSumT_apply]
  unfold Spec.lsmR Spec.rowLse
  refine congrArg (fun t => (z (ix2 g o) - Spec.rowMax z g) - Ideal.log t) ?_
  refine Finset.sum_congr rfl fun k _ => ?_
  rw [hostExp_apply, hsh]

end Cert.ReferenceIdeal.RefVal

end
-- ==== Proof.RefVal.lean ====
import proofs.«420935_j80238579024178_3_alg».proof.Proof.Gen.ReferenceIdeal.Read
import proofs.«420935_j80238579024178_3_alg».proof.Proof.RefLib

noncomputable section

open scoped BigOperators

namespace Cert.ReferenceIdeal.RefVal

open Cert.ReferenceIdeal Cert.ReferenceIdeal.Gen Cert.ReferenceIdeal.Read Idealize.ShloMosaic Idealize.ShloMosaic.ValueIdx

def aggR128 (x1 : (⟨S2x800000, .i32⟩ : BufTy).Contents (Elt Ideal)) (h : FVec Ideal S50000x128 .f32) : FVec Ideal S50000x128 .f32 :=
  Host.scatterAdd (F := Ideal) scatter_S50000x128_S800000x1_S800000x128_1_0_0_1 (val_main_v11 (F := Ideal)) (val_main_v12 (F := Ideal) x1)
    (Host.gather gather_S50000x128_S800000x1_S800000x128_1_0_n_n_0_1_1128 h (val_main_v9 (F := Ideal) x1))

def aggR256 (x1 : (⟨S2x800000, .i32⟩ : BufTy).Contents (Elt Ideal)) (h : FVec Ideal S50000x256 .f32) : FVec Ideal S50000x256 .f32 :=
  Host.scatterAdd (F := Ideal) scatter_S50000x256_S800000x1_S800000x256_1_0_0_1 (val_main_v43 (F := Ideal)) (val_main_v44 (F := Ideal) x1)
    (Host.gather gather_S50000x256_S800000x1_S800000x256_1_0_n_n_0_1_1256 h (val_main_v41 (F := Ideal) x1))

def DR (x1 : (⟨S2x800000, .i32⟩ : BufTy).Contents (Elt Ideal)) : FVec Ideal S50000 .f32 := val_main_v19 (F := Ideal) x1

def bOf (x2 : (⟨S50000, .i32⟩ : BufTy).Contents (Elt Ideal)) : Fin 50000 → BitVec 32 := fun n => x2 (ix1 n)

def hR1 (x0 : (⟨S50000x128, .f32⟩ : BufTy).Contents (Elt Ideal)) (x1 : (⟨S2x800000, .i32⟩ : BufTy).Contents (Elt Ideal)) (x3 x4 : (⟨S128x256, .f32⟩ : BufTy).Contents (Elt Ideal)) (x5 : (⟨S256, .f32⟩ : BufTy).Contents (Elt Ideal)) : Spec.Arr2 50000 256 := Spec.layR (aggR128 x1 x0) (DR x1) x0 x3 x5 x4
def hR2 (x0 : (⟨S50000x128, .f32⟩ : BufTy).Contents (Elt Ideal)) (x1 : (⟨S2x800000, .i32⟩ : BufTy).Contents (Elt Ideal)) (x3 x4 : (⟨S128x256, .f32⟩ : BufTy).Contents (Elt Ideal)) (x5 : (⟨S256, .f32⟩ : BufTy).Contents (Elt Ideal)) (x6 x7 : (⟨S4x256x256, .f32⟩ : BufTy).Contents (Elt Ideal)) (x8 : (⟨S4x256, .f32⟩ : BufTy).Contents (Elt Ideal)) : Spec.Arr2 50000 256 :=
  Spec.layR (aggR256 x1 (hR1 x0 x1 x3 x4 x5)) (DR x1) (hR1 x0 x1 x3 x4 x5) (Spec.slab x6 0) (Spec.row x8 0) (Spec.slab x7 0)
def hR3 (x0 : (⟨S50000x128, .f32⟩ : BufTy).Contents (Elt Ideal)) (x1 : (⟨S2x800000, .i32⟩ : BufTy).Contents (Elt Ideal)) (x3 x4 : (⟨S128x256, .f32⟩ : BufTy).Contents (Elt Ideal)) (x5 : (⟨S256, .f32⟩ : BufTy).Contents (Elt Ideal)) (x6 x7 : (⟨S4x256x256, .f32⟩ : BufTy).Contents (Elt Ideal)) (x8 : (⟨S4x256, .f32⟩ : BufTy).Contents (Elt Ideal)) : Spec.Arr2 50000 256 :=
  Spec.layR (aggR256 x1 (hR2 x0 x1 x3 x4 x5 x6 x7 x8)) (DR x1) (hR2 x0 x1 x3 x4 x5 x6 x7 x8) (Spec.slab x6 1) (Spec.row x8 1) (Spec.slab x7 1)
def hR4 (x0 : (⟨S50000x128, .f32⟩ : BufTy).Contents (Elt Ideal)) (x1 : (⟨S2x800000, .i32⟩ : BufTy).Contents (Elt Ideal)) (x3 x4 : (⟨S128x256, .f32⟩ : BufTy).Contents (Elt Ideal)) (x5 : (⟨S256, .f32⟩ : BufTy).Contents (Elt Ideal)) (x6 x7 : (⟨S4x256x256, .f32⟩ : BufTy).Contents (Elt Ideal)) (x8 : (⟨S4x256, .f32⟩ : BufTy).Contents (Elt Ideal)) : Spec.Arr2 50000 256 :=
  Spec.layR (aggR256 x1 (hR3 x0 x1 x3 x4 x5 x6 x7 x8)) (DR x1) (hR3 x0 x1 x3 x4 x5 x6 x7 x8) (Spec.slab x6 2) (Spec.row x8 2) (Spec.slab x7 2)
def hR5 (x0 : (⟨S50000x128, .f32⟩ : BufTy).Contents (Elt Ideal)) (x1 : (⟨S2x800000, .i32⟩ : BufTy).Contents (Elt Ideal)) (x3 x4 : (⟨S128x256, .f32⟩ : BufTy).Contents (Elt Ideal)) (x5 : (⟨S256, .f32⟩ : BufTy).Contents (Elt Ideal)) (x6 x7 : (⟨S4x256x256, .f32⟩ : BufTy).Contents (Elt Ideal)) (x8 : (⟨S4x256, .f32⟩ : BufTy).Contents (Elt Ideal)) : Spec.Arr2 50000 256 :=
  Spec.layR (aggR256 x1 (hR4 x0 x1 x3 x4 x5 x6 x7 x8)) (DR x1) (hR4 x0 x1 x3 x4 x5 x6 x7 x8) (Spec.slab x6 3) (Spec.row x8 3) (Spec.slab x7 3)

theorem layer1 (x0 : (⟨S50000x128, .f32⟩ : BufTy).Contents (Elt Ideal)) (x1 : (⟨S2x800000, .i32⟩ : BufTy).Contents (Elt Ideal)) (x3 x4 : (⟨S128x256, .f32⟩ : BufTy).Contents (Elt Ideal)) (x5 : (⟨S256, .f32⟩ : BufTy).Contents (Elt Ideal)) : val_main_v29 (F := Ideal) x0 x1 x3 x4 x5 = hR1 x0 x1 x3 x4 x5 :=
  layer128_eq (aggR128 x1 x0) x0 (DR x1) x3 x4 x5

theorem slabL0_eq (W : (⟨S4x256x256, .f32⟩ : BufTy).Contents (Elt Ideal)) : val_main_v31 (F := Ideal) W = Spec.slab W 0 := by
  funext i
  obtain ⟨a, b, rfl⟩ : ∃ (a b : Fin 256), i = ix2 a b := ⟨i 0, i 1, eq_ix2 i⟩
  rw [val_main_v31_apply, val_main_v30_apply]
  show W _ = W (ix3 (0 : Fin 4) a b)
  have ha := a.isLt; have hb := b.isLt
  exact congrArg W (funext fun d => Fin.ext (by
    match d with
    | ⟨0, _⟩ => rfl
    | ⟨1, _⟩ => show (a.val * 256 + b.val) / 256 % 256 = a.val; omega
    | ⟨2, _⟩ => show (a.val * 256 + b.val) % 256 = b.val; omega))

theorem slabR0_eq (W : (⟨S4x256x256, .f32⟩ : BufTy).Contents (Elt Ideal)) : val_main_v35 (F := Ideal) W = Spec.slab W 0 :=
  slabL0_eq W

theorem row0_eq (B : (⟨S4x256, .f32⟩ : BufTy).Contents (Elt Ideal)) : val_main_v33 (F := Ideal) B = Spec.row B 0 := by
  funext i
  obtain ⟨a, rfl⟩ : ∃ (a : Fin 256), i = ix1 a := ⟨i 0, eq_ix1 i⟩
  rw [val_main_v33_apply, val_main_v32_apply]
  show B _ = B (ix2 (0 : Fin 4) a)
  have ha := a.isLt
  exact congrArg B (funext fun d => Fin.ext (by
    match d with
    | ⟨0, _⟩ => rfl
    | ⟨1, _⟩ => show a.val % 256 = a.val; omega))

theorem DR_v51 (x1 : (⟨S2x800000, .i32⟩ : BufTy).Contents (Elt Ideal)) : val_main_v51 (F := Ideal) x1 = DR x1 := rfl

theorem layer2 (x0 : (⟨S50000x128, .f32⟩ : BufTy).Contents (Elt Ideal)) (x1 : (⟨S2x800000, .i32⟩ : BufTy).Contents (Elt Ideal)) (x3 x4 : (⟨S128x256, .f32⟩ : BufTy).Contents (Elt Ideal)) (x5 : (⟨S256, .f32⟩ : BufTy).Contents (Elt Ideal)) (x6 x7 : (⟨S4x256x256, .f32⟩ : BufTy).Contents (Elt Ideal)) (x8 : (⟨S4x256, .f32⟩ : BufTy).Contents (Elt Ideal)) : val_main_v61 (F := Ideal) x0 x1 x3 x4 x5 x6 x7 x8 = hR2 x0 x1 x3 x4 x5 x6 x7 x8 := by
  unfold hR2
  rw [← layer1, ← slabL0_eq x6, ← row0_eq x8, ← slabR0_eq x7]
  exact layer256_eq (aggR256 x1 (val_main_v29 (F := Ideal) x0 x1 x3 x4 x5)) (val_main_v29 (F := Ideal) x0 x1 x3 x4 x5) (DR x1) (val_main_v31 (F := Ideal) x6)
    (val_main_v35 (F := Ideal) x7) (val_main_v33 (F := Ideal) x8)

theorem slabL1_eq (W : (⟨S4x256x256, .f32⟩ : BufTy).Contents (Elt Ideal)) : val_main_v63 (F := Ideal) W = Spec.slab W 1 := by
  funext i
  obtain ⟨a, b, rfl⟩ : ∃ (a b : Fin 256), i = ix2 a b := ⟨i 0, i 1, eq_ix2 i⟩
  rw [val_main_v63_apply, val_main_v62_apply]
  show W _ = W (ix3 (1 : Fin 4) a b)
  have ha := a.isLt; have hb := b.isLt
  exact congrArg W (funext fun d => Fin.ext (by
    match d with
    | ⟨0, _⟩ => rfl
    | ⟨1, _⟩ => show (a.val * 256 + b.val) / 256 % 256 = a.val; omega
    | ⟨2, _⟩ => show (a.val * 256 + b.val) % 256 = b.val; omega))

theorem slabR1_eq (W : (⟨S4x256x256, .f32⟩ : BufTy).Contents (Elt Ideal)) : val_main_v67 (F := Ideal) W = Spec.slab W 1 :=
  slabL1_eq W

theorem row1_eq (B : (⟨S4x256, .f32⟩ : BufTy).Contents (Elt Ideal)) : val_main_v65 (F := Ideal) B = Spec.row B 1 := by
  funext i
  obtain ⟨a, rfl⟩ : ∃ (a : Fin 256), i = ix1 a := ⟨i 0, eq_ix1 i⟩
  rw [val_main_v65_apply, val_main_v64_apply]
  show B _ = B (ix2 (1 : Fin 4) a)
  have ha := a.isLt
  exact congrArg B (funext fun d => Fin.ext (by
    match d with
    | ⟨0, _⟩ => rfl
    | ⟨1, _⟩ => show a.val % 256 = a.val; omega))

theorem DR_v83 (x1 : (⟨S2x800000, .i32⟩ : BufTy).Contents (Elt Ideal)) : val_main_v83 (F := Ideal) x1 = DR x1 := rfl

theorem layer3 (x0 : (⟨S50000x128, .f32⟩ : BufTy).Contents (Elt Ideal)) (x1 : (⟨S2x800000, .i32⟩ : BufTy).Contents (Elt Ideal)) (x3 x4 : (⟨S128x256, .f32⟩ : BufTy).Contents (Elt Ideal)) (x5 : (⟨S256, .f32⟩ : BufTy).Contents (Elt Ideal)) (x6 x7 : (⟨S4x256x256, .f32⟩ : BufTy).Contents (Elt Ideal)) (x8 : (⟨S4x256, .f32⟩ : BufTy).Contents (Elt Ideal)) : val_main_v93 (F := Ideal) x0 x1 x3 x4 x5 x6 x7 x8 = hR3 x0 x1 x3 x4 x5 x6 x7 x8 := by
  unfold hR3
  rw [← layer2, ← slabL1_eq x6, ← row1_eq x8, ← slabR1_eq x7]
  exact layer256_eq (aggR256 x1 (val_main_v61 (F := Ideal) x0 x1 x3 x4 x5 x6 x7 x8)) (val_main_v61 (F := Ideal) x0 x1 x3 x4 x5 x6 x7 x8) (DR x1) (val_main_v63 (F := Ideal) x6)
    (val_main_v67 (F := Ideal) x7) (val_main_v65 (F := Ideal) x8)

theorem slabL2_eq (W : (⟨S4x256x256, .f32⟩ : BufTy).Contents (Elt Ideal)) : val_main_v95 (F := Ideal) W = Spec.slab W 2 := by
  funext i
  obtain ⟨a, b, rfl⟩ : ∃ (a b : Fin 256), i = ix2 a b := ⟨i 0, i 1, eq_ix2 i⟩
  rw [val_main_v95_apply, val_main_v94_apply]
  show W _ = W (ix3 (2 : Fin 4) a b)
  have ha := a.isLt; have hb := b.isLt
  exact congrArg W (funext fun d => Fin.ext (by
    match d with
    | ⟨0, _⟩ => rfl
    | ⟨1, _⟩ => show (a.val * 256 + b.val) / 256 % 256 = a.val; omega
    | ⟨2, _⟩ => show (a.val * 256 + b.val) % 256 = b.val; omega))

theorem slabR2_eq (W : (⟨S4x256x256, .f32⟩ : BufTy).Contents (Elt Ideal)) : val_main_v99 (F := Ideal) W = Spec.slab W 2 :=
  slabL2_eq W

theorem row2_eq (B : (⟨S4x256, .f32⟩ : BufTy).Contents (Elt Ideal)) : val_main_v97 (F := Ideal) B = Spec.row B 2 := by
  funext i
  obtain ⟨a, rfl⟩ : ∃ (a : Fin 256), i = ix1 a := ⟨i 0, eq_ix1 i⟩
  rw [val_main_v97_apply, val_main_v96_apply]
  show B _ = B (ix2 (2 : Fin 4) a)
  have ha := a.isLt
  exact congrArg B (funext fun d => Fin.ext (by
    match d with
    | ⟨0, _⟩ => rfl
    | ⟨1, _⟩ => show a.val % 256 = a.val; omega))

theorem DR_v115 (x1 : (⟨S2x800000, .i32⟩ : BufTy).Contents (Elt Ideal)) : val_main_v115 (F := Ideal) x1 = DR x1 := rfl

theorem layer4 (x0 : (⟨S50000x128, .f32⟩ : BufTy).Contents (Elt Ideal)) (x1 : (⟨S2x800000, .i32⟩ : BufTy).Contents (Elt Ideal)) (x3 x4 : (⟨S128x256, .f32⟩ : BufTy).Contents (Elt Ideal)) (x5 : (⟨S256, .f32⟩ : BufTy).Contents (Elt Ideal)) (x6 x7 : (⟨S4x256x256, .f32⟩ : BufTy).Contents (Elt Ideal)) (x8 : (⟨S4x256, .f32⟩ : BufTy).Contents (Elt Ideal)) : val_main_v125 (F := Ideal) x0 x1 x3 x4 x5 x6 x7 x8 = hR4 x0 x1 x3 x4 x5 x6 x7 x8 := by
  unfold hR4
  rw [← layer3, ← slabL2_eq x6, ← row2_eq x8, ← slabR2_eq x7]
  exact layer256_eq (aggR256 x1 (val_main_v93 (F := Ideal) x0 x1 x3 x4 x5 x6 x7 x8)) (val_main_v93 (F := Ideal) x0 x1 x3 x4 x5 x6 x7 x8) (DR x1) (val_main_v95 (F := Ideal) x6)
    (val_main_v99 (F := Ideal) x7) (val_main_v97 (F := Ideal) x8)

theorem slabL3_eq (W : (⟨S4x256x256, .f32⟩ : BufTy).Contents (Elt Ideal)) : val_main_v127 (F := Ideal) W = Spec.slab W 3 := by
  funext i
  obtain ⟨a, b, rfl⟩ : ∃ (a b : Fin 256), i = ix2 a b := ⟨i 0, i 1, eq_ix2 i⟩
  rw [val_main_v127_apply, val_main_v126_apply]
  show W _ = W (ix3 (3 : Fin 4) a b)
  have ha := a.isLt; have hb := b.isLt
  exact congrArg W (funext fun d => Fin.ext (by
    match d with
    | ⟨0, _⟩ => rfl
    | ⟨1, _⟩ => show (a.val * 256 + b.val) / 256 % 256 = a.val; omega
    | ⟨2, _⟩ => show (a.val * 256 + b.val) % 256 = b.val; omega))

theorem slabR3_eq (W : (⟨S4x256x256, .f32⟩ : BufTy).Contents (Elt Ideal)) : val_main_v131 (F := Ideal) W = Spec.slab W 3 :=
  slabL3_eq W

theorem row3_eq (B : (⟨S4x256, .f32⟩ : BufTy).Contents (Elt Ideal)) : val_main_v129 (F := Ideal) B = Spec.row B 3 := by
  funext i
  obtain ⟨a, rfl⟩ : ∃ (a : Fin 256), i = ix1 a := ⟨i 0, eq_ix1 i⟩
  rw [val_main_v129_apply, val_main_v128_apply]
  show B _ = B (ix2 (3 : Fin 4) a)
  have ha := a.isLt
  exact congrArg B (funext fun d => Fin.ext (by
    match d with
    | ⟨0, _⟩ => rfl
    | ⟨1, _⟩ => show a.val % 256 = a.val; omega))

theorem DR_v147 (x1 : (⟨S2x800000, .i32⟩ : BufTy).Contents (Elt Ideal)) : val_main_v147 (F := Ideal) x1 = DR x1 := rfl

theorem layer5 (x0 : (⟨S50000x128, .f32⟩ : BufTy).Contents (Elt Ideal)) (x1 : (⟨S2x800000, .i32⟩ : BufTy).Contents (Elt Ideal)) (x3 x4 : (⟨S128x256, .f32⟩ : BufTy).Contents (Elt Ideal)) (x5 : (⟨S256, .f32⟩ : BufTy).Contents (Elt Ideal)) (x6 x7 : (⟨S4x256x256, .f32⟩ : BufTy).Contents (Elt Ideal)) (x8 : (⟨S4x256, .f32⟩ : BufTy).Contents (Elt Ideal)) : val_main_v157 (F := Ideal) x0 x1 x3 x4 x5 x6 x7 x8 = hR5 x0 x1 x3 x4 x5 x6 x7 x8 := by
  unfold hR5
  rw [← layer4, ← slabL3_eq x6, ← row3_eq x8, ← slabR3_eq x7]
  exact layer256_eq (aggR256 x1 (val_main_v125 (F := Ideal) x0 x1 x3 x4 x5 x6 x7 x8)) (val_main_v125 (F := Ideal) x0 x1 x3 x4 x5 x6 x7 x8) (DR x1) (val_main_v127 (F := Ideal) x6)
    (val_main_v131 (F := Ideal) x7) (val_main_v129 (F := Ideal) x8)

theorem pool_v160 (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 x4 : (⟨S128x256, .f32⟩ : BufTy).Contents (Elt Ideal)) (x5 : (⟨S256, .f32⟩ : BufTy).Contents (Elt Ideal)) (x6 x7 : (⟨S4x256x256, .f32⟩ : BufTy).Contents (Elt Ideal)) (x8 : (⟨S4x256, .f32⟩ : BufTy).Contents (Elt Ideal)) :
    val_main_v160 (F := Ideal) x0 x1 x2 x3 x4 x5 x6 x7 x8 = Spec.poolOf (bOf x2) (hR5 x0 x1 x3 x4 x5 x6 x7 x8) := by
  rw [← layer5]
  exact pool_eq x2 (val_main_v157 (F := Ideal) x0 x1 x3 x4 x5 x6 x7 x8)

theorem cnt_v164 (x2 : (⟨S50000, .i32⟩ : BufTy).Contents (Elt Ideal)) : (fun g : Fin 128 => val_main_v164 (F := Ideal) x2 (ix1 g)) = Spec.cntOf (bOf x2) :=
  funext fun g => cnt_eq x2 g

theorem logits_v173 (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 x4 : (⟨S128x256, .f32⟩ : BufTy).Contents (Elt Ideal)) (x5 : (⟨S256, .f32⟩ : BufTy).Contents (Elt Ideal)) (x6 x7 : (⟨S4x256x256, .f32⟩ : BufTy).Contents (Elt Ideal)) (x8 : (⟨S4x256, .f32⟩ : BufTy).Contents (Elt Ideal)) (x9 : (⟨S256x10, .f32⟩ : BufTy).Contents (Elt Ideal)) (x10 : (⟨S10, .f32⟩ : BufTy).Contents (Elt Ideal)) :
    val_main_v173 (F := Ideal) x0 x1 x2 x3 x4 x5 x6 x7 x8 x9 x10
      = Spec.logitsOf (val_main_v160 (F := Ideal) x0 x1 x2 x3 x4 x5 x6 x7 x8) (fun g : Fin 128 => val_main_v164 (F := Ideal) x2 (ix1 g)) x9 x10 :=
  logits_eq (val_main_v160 (F := Ideal) x0 x1 x2 x3 x4 x5 x6 x7 x8) (val_main_v164 (F := Ideal) x2) x9 x10

theorem ref_val (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 x4 : (⟨S128x256, .f32⟩ : BufTy).Contents (Elt Ideal)) (x5 : (⟨S256, .f32⟩ : BufTy).Contents (Elt Ideal)) (x6 x7 : (⟨S4x256x256, .f32⟩ : BufTy).Contents (Elt Ideal)) (x8 : (⟨S4x256, .f32⟩ : BufTy).Contents (Elt Ideal)) (x9 : (⟨S256x10, .f32⟩ : BufTy).Contents (Elt Ideal)) (x10 : (⟨S10, .f32⟩ : BufTy).Contents (Elt Ideal)) :
    val_main_v174 (F := Ideal) x0 x1 x2 x3 x4 x5 x6 x7 x8 x9 x10
      = Spec.lsmR (Spec.logitsOf (Spec.poolOf (bOf x2) (hR5 x0 x1 x3 x4 x5 x6 x7 x8)) (Spec.cntOf (bOf x2)) x9 x10) := by
  rw [← pool_v160 x0 x1 x2 x3 x4 x5 x6 x7 x8, ← cnt_v164 x2, ← logits_v173 x0 x1 x2 x3 x4 x5 x6 x7 x8 x9 x10]
  exact lsm_eq (val_main_v173 (F := Ideal) x0 x1 x2 x3 x4 x5 x6 x7 x8 x9 x10)

end Cert.ReferenceIdeal.RefVal

end
-- ==== Proof.PreReal.lean ====
import proofs.«420935_j80238579024178_3_alg».proof.Pre_finite_inputs
import proofs.«420935_j80238579024178_3_alg».proof.Proof.Spec
import Idealize.ShloMosaic.Lib.ReduceAll

noncomputable section

namespace Cert.PreReal

open Idealize.ShloMosaic Idealize.ShloMosaic.ValueIdx Cert.Spec Cert.Pre_finite_inputs

instance : Subsingleton S_.Idx := ⟨fun a b => funext fun d => d.elim0⟩

theorem isReal_of_abs_lt_inf (x : EReal)
    (h : Ideal.cmp .olt (max x (-x)) (Ideal.ofBits .f32 0x7F800000#32) = 1#1) : IsReal x := by
  induction x using EReal.rec with
  | bot => simp [Ideal.cmp, Ideal.ofBits, Ideal.ieee] at h
  | coe r => exact ⟨r, rfl⟩
  | top => simp [Ideal.cmp, Ideal.ofBits, Ideal.ieee] at h

theorem and_parts (a b : IVec S_ 1) (h : andi a b ix0 = 1#1) : a ix0 = 1#1 ∧ b ix0 = 1#1 :=
  IntOp.andi_eq_one.1 h

theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ix0 = 1#1)
    (i : s.Idx) : IsReal (x i) :=
  isReal_of_abs_lt_inf (x i) (Host.reduce_andi_all _ _ hr hu ix0 e i)

theorem real_of_pre [Facts]
    (a0 : FVec Ideal S50000x128 .f32) (a1 : IVec S2x800000 32) (a2 : IVec S50000 32)
    (a3 : FVec Ideal S128x256 .f32) (a4 : FVec Ideal S128x256 .f32) (a5 : FVec Ideal S256 .f32)
    (a6 : FVec Ideal S4x256x256 .f32) (a7 : FVec Ideal S4x256x256 .f32) (a8 : FVec Ideal S4x256 .f32)
    (a9 : FVec Ideal S256x10 .f32) (a10 : FVec Ideal S10 .f32)
    (h : fn (F := Ideal) a0 a1 a2 a3 a4 a5 a6 a7 a8 a9 a10 = fun _ => 1#1) :
    (∀ i, IsReal (a0 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, IsReal (a10 i)) := by
  have h0 := congrFun h ix0
  dsimp only [fn, fn_part1, fn_part2] at h0
  obtain ⟨h0, e10⟩ := and_parts _ _ h0
  obtain ⟨h0, e9⟩ := and_parts _ _ h0
  obtain ⟨h0, e8⟩ := and_parts _ _ h0
  obtain ⟨h0, e7⟩ := and_parts _ _ h0
  obtain ⟨h0, e6⟩ := and_parts _ _ h0
  obtain ⟨h0, e5⟩ := and_parts _ _ h0
  obtain ⟨h0, e4⟩ := and_parts _ _ h0
  obtain ⟨e0, e3⟩ := and_parts _ _ h0
  exact ⟨real_of_all a0 _ _ _ e0, real_of_all a3 _ _ _ e3, real_of_all a4 _ _ _ e4,
    real_of_all a5 _ _ _ e5, real_of_all a6 _ _ _ e6, real_of_all a7 _ _ _ e7,
    real_of_all a8 _ _ _ e8, real_of_all a9 _ _ _ e9, real_of_all a10 _ _ _ e10⟩

end Cert.PreReal

end
-- ==== Proof.SpecLaws.lean ====
import proofs.«420935_j80238579024178_3_alg».proof.Proof.Spec
import Mathlib.Data.EReal.Inv
import Mathlib.Analysis.SpecialFunctions.Log.Basic
import Mathlib.Algebra.BigOperators.Group.Finset.Basic
import Mathlib.Algebra.Order.BigOperators.Group.Finset
import Mathlib.Data.Finset.Lattice.Fold

noncomputable section

namespace Cert.Spec

open Idealize.ShloMosaic Idealize.ShloMosaic.ValueIdx

theorem IsReal.coe (r : ℝ) : IsReal (r : EReal) := ⟨r, rfl⟩

theorem IsReal.zero : IsReal 0 := ⟨0, rfl⟩

theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

theorem IsReal.ite {p : Prop} [Decidable p] {x y : EReal} (hx : IsReal x) (hy : IsReal y) :
    IsReal (if p then x else y) := by
  split
  · exact hx
  · exact hy

theorem coe_sum {ι : Type*} (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

theorem IsReal.sum_univ {ι : Type*} [Fintype ι] (f : ι → EReal) (h : ∀ i, IsReal (f i)) :
    IsReal (∑ i, f i) :=
  IsReal.sum Finset.univ f fun i _ => h i

theorem sum_pos_real {ι : Type*} [Fintype ι] [Nonempty ι] (f : ι → EReal)
    (h : ∀ i, ∃ r : ℝ, 0 < r ∧ f i = (r : EReal)) : ∃ r : ℝ, 0 < r ∧ ∑ i, f i = (r : EReal) := by
  choose r hr0 hr using h
  refine ⟨∑ i, r i, Finset.sum_pos (fun i _ => hr0 i) Finset.univ_nonempty, ?_⟩
  rw [coe_sum]
  exact Finset.sum_congr rfl fun i _ => hr i

theorem IsReal.sup_univ {ι : Type*} [Fintype ι] [Nonempty ι] (f : ι → EReal) (h : ∀ i, IsReal (f i)) :
    IsReal (Finset.univ.sup f) := by
  obtain ⟨i, -, hi⟩ := Finset.exists_mem_eq_sup Finset.univ Finset.univ_nonempty f
  rw [hi]; exact h i

theorem IsReal.div_real {x : EReal} (hx : IsReal x) {r : ℝ} (hr : r ≠ 0) : IsReal (Ideal.div x (r : EReal)) := by
  rw [Ideal.div_coe hr]; exact hx.mul (IsReal.coe _)

theorem IsReal.exp {x : EReal} (hx : IsReal x) : ∃ r : ℝ, 0 < r ∧ Ideal.exp x = (r : EReal) := by
  obtain ⟨a, rfl⟩ := hx; exact ⟨Real.exp a, Real.exp_pos a, rfl⟩

theorem IsReal.exp_real {x : EReal} (hx : IsReal x) : IsReal (Ideal.exp x) := by
  obtain ⟨r, -, h⟩ := hx.exp; exact ⟨r, h⟩

theorem log_coe_pos {r : ℝ} (hr : 0 < r) : Ideal.log (r : EReal) = (Real.log r : EReal) := by
  rw [Ideal.log_coe, if_neg (not_le.mpr hr)]

theorem IsReal.log_pos {r : ℝ} (hr : 0 < r) : IsReal (Ideal.log (r : EReal)) := ⟨Real.log r, log_coe_pos hr⟩

theorem mul_div_one (a : EReal) {r : ℝ} (hr : r ≠ 0) : a * Ideal.div 1 (r : EReal) = Ideal.div a (r : EReal) := by
  rw [Ideal.div_coe hr, Ideal.div_coe hr, one_mul]

theorem lay_eq {C : ℕ} (agg : Arr2 50000 C) (inv : Arr2 50000 1) (x : Arr2 50000 C) (Wl : Arr2 C 256) (bl : Arr1 256)
    (Wr : Arr2 C 256) (D : Arr1 50000)
    (hD : ∀ n : Fin 50000, ∃ r : ℝ, r ≠ 0 ∧ D (ix1 n) = (r : EReal) ∧ inv (ix2 n 0) = Ideal.div 1 (D (ix1 n))) :
    layK agg inv x Wl bl Wr = layR agg D x Wl bl Wr := by
  funext i
  obtain ⟨r, hr, hDr, hinv⟩ := hD (i 0)
  have hk : ∀ k : Fin C, agg (ix2 (i 0) k) * inv (ix2 (i 0) 0) = Ideal.div (agg (ix2 (i 0) k)) (D (ix1 (i 0))) := by
    intro k; rw [hinv, hDr]; exact mul_div_one _ hr
  unfold layK layR
  rw [Finset.sum_congr rfl fun k _ => congrArg (· * Wl (ix2 k (i 1))) (hk k), add_right_comm]

theorem layK_real {C : ℕ} (agg : Arr2 50000 C) (inv : Arr2 50000 1) (x : Arr2 50000 C) (Wl : Arr2 C 256) (bl : Arr1 256)
    (Wr : Arr2 C 256) (hagg : ∀ i, IsReal (agg i)) (hinv : ∀ i, IsReal (inv i)) (hx : ∀ i, IsReal (x i))
    (hWl : ∀ i, IsReal (Wl i)) (hbl : ∀ i, IsReal (bl i)) (hWr : ∀ i, IsReal (Wr i)) :
    ∀ i, IsReal (layK agg inv x Wl bl Wr i) := by
  intro i
  unfold layK
  exact IsReal.max (IsReal.add (IsReal.add (IsReal.sum_univ _ fun k => ((hagg _).mul (hinv _)).mul (hWl _))
    (IsReal.sum_univ _ fun k => (hx _).mul (hWr _))) (hbl _)) IsReal.zero

theorem layR_real {C : ℕ} (agg : Arr2 50000 C) (D : Arr1 50000) (x : Arr2 50000 C) (Wl : Arr2 C 256) (bl : Arr1 256)
    (Wr : Arr2 C 256) (hagg : ∀ i, IsReal (agg i)) (hD : ∀ n : Fin 50000, ∃ r : ℝ, r ≠ 0 ∧ D (ix1 n) = (r : EReal))
    (hx : ∀ i, IsReal (x i)) (hWl : ∀ i, IsReal (Wl i)) (hbl : ∀ i, IsReal (bl i)) (hWr : ∀ i, IsReal (Wr i)) :
    ∀ i, IsReal (layR agg D x Wl bl Wr i) := by
  intro i
  obtain ⟨r, hr, hDr⟩ := hD (i 0)
  unfold layR
  rw [hDr]
  exact IsReal.max (IsReal.add (IsReal.add (IsReal.sum_univ _ fun k => ((hagg _).div_real hr).mul (hWl _)) (hbl _))
    (IsReal.sum_univ _ fun k => (hx _).mul (hWr _))) IsReal.zero

theorem sum_ind_nat {ι : Type*} (s : Finset ι) (p : ι → Prop) [DecidablePred p] :
    ∃ k : ℕ, (∑ i ∈ s, if p i then (1 : EReal) else 0) = ((k : ℝ) : EReal) := by
  classical
  induction s using Finset.induction_on with
  | empty => exact ⟨0, by rw [Finset.sum_empty, Nat.cast_zero, EReal.coe_zero]⟩
  | insert a s ha ih =>
    obtain ⟨k, hk⟩ := ih
    rw [Finset.sum_insert ha, hk]
    by_cases h : p a
    · exact ⟨k + 1, by rw [if_pos h, Nat.cast_succ, EReal.coe_add, EReal.coe_one, add_comm]⟩
    · exact ⟨k, by rw [if_neg h, zero_add]⟩

theorem cntOf_real (b : Fin 50000 → BitVec 32) (g : Fin 128) : ∃ k : ℕ, cntOf b g = ((k : ℝ) : EReal) :=
  sum_ind_nat Finset.univ fun n => inGraph b n g.val

theorem cntOf_max_one (b : Fin 50000 → BitVec 32) (g : Fin 128) :
    ∃ r : ℝ, 1 ≤ r ∧ max (cntOf b g) 1 = (r : EReal) := by
  obtain ⟨k, hk⟩ := cntOf_real b g
  rw [hk]
  rcases le_total (k : ℝ) 1 with h | h
  · exact ⟨1, le_refl _, by rw [max_eq_right (by exact_mod_cast h), EReal.coe_one]⟩
  · exact ⟨k, h, max_eq_left (by exact_mod_cast h)⟩

theorem cntOf_max_one_ne (b : Fin 50000 → BitVec 32) (g : Fin 128) :
    ∃ r : ℝ, r ≠ 0 ∧ max (cntOf b g) 1 = (r : EReal) := by
  obtain ⟨r, hr, h⟩ := cntOf_max_one b g
  exact ⟨r, by linarith, h⟩

theorem poolOf_real (b : Fin 50000 → BitVec 32) (h : Arr2 50000 256) (hh : ∀ i, IsReal (h i)) :
    ∀ i, IsReal (poolOf b h i) := by
  intro i
  unfold poolOf
  exact IsReal.sum_univ _ fun n => IsReal.ite (hh _) IsReal.zero

theorem logitsOf_real (b : Fin 50000 → BitVec 32) (P : Arr2 128 256) (Wo : Arr2 256 10) (bo : Arr1 10)
    (hP : ∀ i, IsReal (P i)) (hWo : ∀ i, IsReal (Wo i)) (hbo : ∀ i, IsReal (bo i)) :
    ∀ i, IsReal (logitsOf P (cntOf b) Wo bo i) := by
  intro i
  obtain ⟨r, hr, hc⟩ := cntOf_max_one_ne b (i 0)
  unfold logitsOf
  rw [hc]
  exact IsReal.add (IsReal.sum_univ _ fun c => ((hP _).div_real hr).mul (hWo _)) (hbo _)

theorem fold_max_real {ι : Type*} [Fintype ι] [Nonempty ι] (f : ι → EReal) (h : ∀ i, IsReal (f i)) :
    IsReal (Finset.univ.fold max ⊥ f) := by
  have e : Finset.univ.fold max ⊥ f = Finset.univ.sup f := rfl
  rw [e]; exact IsReal.sup_univ f h

theorem rowMax_real (z : Arr2 128 10) (hz : ∀ i, IsReal (z i)) (g : Fin 128) : IsReal (rowMax z g) :=
  fold_max_real _ fun o => hz _

theorem rowLse_real (z : Arr2 128 10) (hz : ∀ i, IsReal (z i)) (g : Fin 128) : IsReal (rowLse z g) := by
  obtain ⟨s, hs, h⟩ := sum_pos_real (fun o : Fin 10 => Ideal.exp (z (ix2 g o) - rowMax z g))
    fun o => ((hz _).sub (rowMax_real z hz g)).exp
  unfold rowLse
  rw [h]
  exact IsReal.log_pos hs

theorem lsm_eq (z : Arr2 128 10) (hz : ∀ i, IsReal (z i)) : lsmK z = lsmR z := by
  funext i
  obtain ⟨a, ha⟩ := hz i
  obtain ⟨m, hm⟩ := rowMax_real z hz (i 0)
  obtain ⟨l, hl⟩ := rowLse_real z hz (i 0)
  unfold lsmK lsmR
  rw [ha, hm, hl, ← EReal.coe_add, ← EReal.coe_sub, ← EReal.coe_sub, ← EReal.coe_sub, sub_add_eq_sub_sub]

theorem lsmR_real (z : Arr2 128 10) (hz : ∀ i, IsReal (z i)) : ∀ i, IsReal (lsmR z i) := by
  intro i
  unfold lsmR
  exact ((hz i).sub (rowMax_real z hz (i 0))).sub (rowLse_real z hz (i 0))

end Cert.Spec

end
-- ==== Proof.Chain.lean ====
import proofs.«420935_j80238579024178_3_alg».proof.Proof.Spec
import proofs.«420935_j80238579024178_3_alg».proof.Proof.SpecLaws

noncomputable section

namespace Cert.Spec

open Idealize.ShloMosaic Idealize.ShloMosaic.ValueIdx

def netK (A1 : Arr2 50000 128 → Arr2 50000 128) (A : Arr2 50000 256 → Arr2 50000 256) (inv : Arr2 50000 1)
    (b : Fin 50000 → BitVec 32) (a0 : Arr2 50000 128) (a3 a4 : Arr2 128 256) (a5 : Arr1 256)
    (a6 a7 : (⟨3, ![4, 256, 256]⟩ : Shape).Idx → EReal) (a8 : Arr2 4 256) (a9 : Arr2 256 10) (a10 : Arr1 10) :
    Arr2 128 10 :=
  let h1 := layK (A1 a0) inv a0 a3 a5 a4
  let h2 := layK (A h1) inv h1 (slab a6 0) (row a8 0) (slab a7 0)
  let h3 := layK (A h2) inv h2 (slab a6 1) (row a8 1) (slab a7 1)
  let h4 := layK (A h3) inv h3 (slab a6 2) (row a8 2) (slab a7 2)
  let h5 := layK (A h4) inv h4 (slab a6 3) (row a8 3) (slab a7 3)
  lsmK (logitsOf (poolOf b h5) (cntOf b) a9 a10)

def netR (A1 : Arr2 50000 128 → Arr2 50000 128) (A : Arr2 50000 256 → Arr2 50000 256) (D : Arr1 50000)
    (b : Fin 50000 → BitVec 32) (a0 : Arr2 50000 128) (a3 a4 : Arr2 128 256) (a5 : Arr1 256)
    (a6 a7 : (⟨3, ![4, 256, 256]⟩ : Shape).Idx → EReal) (a8 : Arr2 4 256) (a9 : Arr2 256 10) (a10 : Arr1 10) :
    Arr2 128 10 :=
  let h1 := layR (A1 a0) D a0 a3 a5 a4
  let h2 := layR (A h1) D h1 (slab a6 0) (row a8 0) (slab a7 0)
  let h3 := layR (A h2) D h2 (slab a6 1) (row a8 1) (slab a7 1)
  let h4 := layR (A h3) D h3 (slab a6 2) (row a8 2) (slab a7 2)
  let h5 := layR (A h4) D h4 (slab a6 3) (row a8 3) (slab a7 3)
  lsmR (logitsOf (poolOf b h5) (cntOf b) a9 a10)

theorem layR_step {C : ℕ} (Ag : Arr2 50000 C → Arr2 50000 C)
    (hAg : ∀ h, (∀ i, IsReal (h i)) → ∀ i, IsReal (Ag h i)) (D : Arr1 50000)
    (hD : ∀ n : Fin 50000, ∃ r : ℝ, r ≠ 0 ∧ D (ix1 n) = (r : EReal))
    (x : Arr2 50000 C) (hx : ∀ i, IsReal (x i)) (Wl : Arr2 C 256) (bl : Arr1 256) (Wr : Arr2 C 256)
    (hWl : ∀ i, IsReal (Wl i)) (hbl : ∀ i, IsReal (bl i)) (hWr : ∀ i, IsReal (Wr i)) :
    ∀ i, IsReal (layR (Ag x) D x Wl bl Wr i) :=
  layR_real (Ag x) D x Wl bl Wr (hAg x hx) hD hx hWl hbl hWr

theorem slab_real (W : (⟨3, ![4, 256, 256]⟩ : Shape).Idx → EReal) (hW : ∀ i, IsReal (W i)) (k : Fin 4) :
    ∀ i, IsReal (slab W k i) := fun _ => hW _

theorem row_real (B : Arr2 4 256) (hB : ∀ i, IsReal (B i)) (k : Fin 4) : ∀ i, IsReal (row B k i) := fun _ => hB _

theorem netR_layers_real (A1 : Arr2 50000 128 → Arr2 50000 128) (A : Arr2 50000 256 → Arr2 50000 256) (D : Arr1 50000)
    (a0 : Arr2 50000 128) (a3 a4 : Arr2 128 256) (a5 : Arr1 256)
    (a6 a7 : (⟨3, ![4, 256, 256]⟩ : Shape).Idx → EReal) (a8 : Arr2 4 256)
    (hD : ∀ n : Fin 50000, ∃ r : ℝ, r ≠ 0 ∧ D (ix1 n) = (r : EReal))
    (hA1 : ∀ h, (∀ i, IsReal (h i)) → ∀ i, IsReal (A1 h i)) (hA : ∀ h, (∀ i, IsReal (h i)) → ∀ i, IsReal (A h i))
    (h0 : ∀ i, IsReal (a0 i)) (h3 : ∀ i, IsReal (a3 i)) (h4 : ∀ i, IsReal (a4 i)) (h5 : ∀ i, IsReal (a5 i))
    (h6 : ∀ i, IsReal (a6 i)) (h7 : ∀ i, IsReal (a7 i)) (h8 : ∀ i, IsReal (a8 i)) :
    let h1 := layR (A1 a0) D a0 a3 a5 a4
    let h2 := layR (A h1) D h1 (slab a6 0) (row a8 0) (slab a7 0)
    let h3 := layR (A h2) D h2 (slab a6 1) (row a8 1) (slab a7 1)
    let h4 := layR (A h3) D h3 (slab a6 2) (row a8 2) (slab a7 2)
    ∀ i, IsReal (layR (A h4) D h4 (slab a6 3) (row a8 3) (slab a7 3) i) := by
  intro h1 h2 h3' h4'
  have r1 : ∀ i, IsReal (h1 i) := layR_step A1 hA1 D hD a0 h0 a3 a5 a4 h3 h5 h4
  have r2 : ∀ i, IsReal (h2 i) :=
    layR_step A hA D hD h1 r1 _ _ _ (slab_real a6 h6 0) (row_real a8 h8 0) (slab_real a7 h7 0)
  have r3 : ∀ i, IsReal (h3' i) :=
    layR_step A hA D hD h2 r2 _ _ _ (slab_real a6 h6 1) (row_real a8 h8 1) (slab_real a7 h7 1)
  have r4 : ∀ i, IsReal (h4' i) :=
    layR_step A hA D hD h3' r3 _ _ _ (slab_real a6 h6 2) (row_real a8 h8 2) (slab_real a7 h7 2)
  exact layR_step A hA D hD h4' r4 _ _ _ (slab_real a6 h6 3) (row_real a8 h8 3) (slab_real a7 h7 3)

theorem net_eq (A1 : Arr2 50000 128 → Arr2 50000 128) (A : Arr2 50000 256 → Arr2 50000 256) (inv : Arr2 50000 1)
    (D : Arr1 50000) (b : Fin 50000 → BitVec 32) (a0 : Arr2 50000 128) (a3 a4 : Arr2 128 256) (a5 : Arr1 256)
    (a6 a7 : (⟨3, ![4, 256, 256]⟩ : Shape).Idx → EReal) (a8 : Arr2 4 256) (a9 : Arr2 256 10) (a10 : Arr1 10)
    (hD : ∀ n : Fin 50000, ∃ r : ℝ, r ≠ 0 ∧ D (ix1 n) = (r : EReal) ∧ inv (ix2 n 0) = Ideal.div 1 (D (ix1 n)))
    (hA1 : ∀ h, (∀ i, IsReal (h i)) → ∀ i, IsReal (A1 h i)) (hA : ∀ h, (∀ i, IsReal (h i)) → ∀ i, IsReal (A h i))
    (h0 : ∀ i, IsReal (a0 i)) (h3 : ∀ i, IsReal (a3 i)) (h4 : ∀ i, IsReal (a4 i)) (h5 : ∀ i, IsReal (a5 i))
    (h6 : ∀ i, IsReal (a6 i)) (h7 : ∀ i, IsReal (a7 i)) (h8 : ∀ i, IsReal (a8 i)) (h9 : ∀ i, IsReal (a9 i))
    (h10 : ∀ i, IsReal (a10 i)) :
    netK A1 A inv b a0 a3 a4 a5 a6 a7 a8 a9 a10 = netR A1 A D b a0 a3 a4 a5 a6 a7 a8 a9 a10 := by
  have L : ∀ {C : ℕ} (agg x : Arr2 50000 C) (Wl : Arr2 C 256) (bl : Arr1 256) (Wr : Arr2 C 256),
      layK agg inv x Wl bl Wr = layR agg D x Wl bl Wr := fun agg x Wl bl Wr => lay_eq agg inv x Wl bl Wr D hD
  have hDr : ∀ n : Fin 50000, ∃ r : ℝ, r ≠ 0 ∧ D (ix1 n) = (r : EReal) := fun n => by
    obtain ⟨r, hr, h, -⟩ := hD n; exact ⟨r, hr, h⟩
  have R := netR_layers_real A1 A D a0 a3 a4 a5 a6 a7 a8 hDr hA1 hA h0 h3 h4 h5 h6 h7 h8
  unfold netK netR
  simp only [L]
  exact lsm_eq _ (logitsOf_real b _ a9 a10 (poolOf_real b _ R) h9 h10)

end Cert.Spec

end
-- ==== Proof.HostKDefs.lean ====
import proofs.«420935_j80238579024178_3_alg».proof.Proof.Gen.KernelIdeal
import proofs.«420935_j80238579024178_3_alg».proof.Proof.Spec

noncomputable section

namespace Cert.KernelIdeal.KVal

open Cert.KernelIdeal Cert.KernelIdeal.Gen
open Idealize.ShloMosaic

def srcv (x1 : IVec S2x800000 32) : IVec S800000 32 :=
  shapeCast S800000 (extractStridedSlice S1x800000 ![0, 0] x1 slices_S2x800000_S1x800000_0_0) shapeCasts_S1x800000_S800000

def dstv (x1 : IVec S2x800000 32) : IVec S800000 32 :=
  shapeCast S800000 (extractStridedSlice S1x800000 ![1, 0] x1 slices_S2x800000_S1x800000_1_0) shapeCasts_S1x800000_S800000

def degK (x1 : IVec S2x800000 32) : Spec.Arr1 50000 :=
  Host.scatterAdd (F := Ideal) (φ := .f32) scatter_S50000_S800000x1_S800000_n_0_0_1
    (broadcastInDim S50000 ![] bcast_S_S50000 (constant (F := Ideal) S_ .f32 0x00000000#32))
    (broadcastInDim S800000x1 ![0] bcast_S800000_S800000x1_0 (dstv x1))
    (broadcastInDim S800000 ![] bcast_S_S800000 (constant (F := Ideal) S_ .f32 0x3F800000#32))

def DK (x1 : IVec S2x800000 32) : Spec.Arr1 50000 :=
  maximumf (F := Ideal) (φ := .f32) (degK x1) (broadcastInDim S50000 ![] bcast_S_S50000 (constant (F := Ideal) S_ .f32 0x3F800000#32))

def invK (x1 : IVec S2x800000 32) : Spec.Arr2 50000 1 :=
  broadcastInDim S50000x1 ![0] bcast_S50000_S50000x1_0
    (Host.divf (F := Ideal) (φ := .f32) (broadcastInDim S50000 ![] bcast_S_S50000 (constant (F := Ideal) S_ .f32 0x3F800000#32)) (DK x1))

def aggKv128 (sv dv : IVec S800000 32) (h : Spec.Arr2 50000 128) : Spec.Arr2 50000 128 :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 dv)
    (Host.gather gather_S50000x128_S800000x1_S800000x128_1_0_n_n_0_1_1128 h
      (broadcastInDim S800000x1 ![0] bcast_S800000_S800000x1_0
        (select (cmpi .slt sv (broadcastInDim S800000 ![] bcast_S_S800000 (constantI S_ 32 0#32)))
          (addi sv (broadcastInDim S800000 ![] bcast_S_S800000 (constantI S_ 32 50000#32))) sv)))

def aggKv256 (sv dv : IVec S800000 32) (h : Spec.Arr2 50000 256) : Spec.Arr2 50000 256 :=
  Host.scatterAdd (F := Ideal) (φ := .f32) scatter_S50000x256_S800000x1_S800000x256_1_0_0_1
    (broadcastInDim S50000x256 ![] bcast_S_S50000x256 (constant (F := Ideal) S_ .f32 0x00000000#32))
    (broadcastInDim S800000x1 ![0] bcast_S800000_S800000x1_0 dv)
    (Host.gather gather_S50000x256_S800000x1_S800000x256_1_0_n_n_0_1_1256 h
      (broadcastInDim S800000x1 ![0] bcast_S800000_S800000x1_0
        (select (cmpi .slt sv (broadcastInDim S800000 ![] bcast_S_S800000 (constantI S_ 32 0#32)))
          (addi sv (broadcastInDim S800000 ![] bcast_S_S800000 (constantI S_ 32 50000#32))) sv)))

def aggK128 (x1 : IVec S2x800000 32) (h : Spec.Arr2 50000 128) : Spec.Arr2 50000 128 := aggKv128 (srcv x1) (dstv x1) h
def aggK256 (x1 : IVec S2x800000 32) (h : Spec.Arr2 50000 256) : Spec.Arr2 50000 256 := aggKv256 (srcv x1) (dstv x1) h

end Cert.KernelIdeal.KVal
-- ==== Proof.HostK.lean ====
import proofs.«420935_j80238579024178_3_alg».proof.Proof.Gen.KernelIdeal.Launch
import proofs.«420935_j80238579024178_3_alg».proof.Proof.HostKDefs
import proofs.«420935_j80238579024178_3_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.KVal

open Cert.KernelIdeal Cert.KernelIdeal.Gen
open Idealize.ShloMosaic Idealize.ShloMosaic.TcCoe Idealize.ShloMosaic.ValueIdx

theorem slab_read (A : S4x256x256.Idx → EReal) (k : Fin 4) (off : Fin 3 → Nat)
    (h0 : off 0 = k.val) (h1 : off 1 = 0) (h2 : off 2 = 0)
    (hs : S4x256x256.Slices off S1x256x256) (hc : S1x256x256.ShapeCasts S256x256) :
    shapeCast S256x256 (extractStridedSlice S1x256x256 off A hs) hc = Cert.Spec.slab A k := by
  funext i
  obtain ⟨p, q, rfl⟩ : ∃ (p : Fin 256) (q : Fin 256), i = ix2 p q := ⟨i 0, i 1, eq_ix2 i⟩
  refine (shapeCast_apply _ hc (ix2 p q) (ix3 (0 : Fin 1) p q) (by
    rw [Shape.rowMajor_val_three, Shape.rowMajor_val_two]
    show (0 * 256 + p.val) * 256 + q.val = p.val * 256 + q.val
    omega)).trans ?_
  refine (extractStridedSlice_apply off A hs (ix3 (0 : Fin 1) p q) (ix3 k p q) (fun a => match a with
    | ⟨0, _⟩ => by show k.val = off 0 + 0; omega
    | ⟨1, _⟩ => by show p.val = off 1 + p.val; omega
    | ⟨2, _⟩ => by show q.val = off 2 + q.val; omega)).trans ?_
  rfl

theorem row_read (B : S4x256.Idx → EReal) (k : Fin 4) (off : Fin 2 → Nat)
    (h0 : off 0 = k.val) (h1 : off 1 = 0)
    (hs : S4x256.Slices off S1x256) (hc : S1x256.ShapeCasts S256) :
    shapeCast S256 (extractStridedSlice S1x256 off B hs) hc = Cert.Spec.row B k := by
  funext i
  obtain ⟨p, rfl⟩ : ∃ (p : Fin 256), i = ix1 p := ⟨i 0, eq_ix1 i⟩
  refine (shapeCast_apply _ hc (ix1 p) (ix2 (0 : Fin 1) p) (by
    rw [Shape.rowMajor_val_two, Shape.rowMajor_val_one]
    show 0 * 256 + p.val = p.val
    omega)).trans ?_
  refine (extractStridedSlice_apply off B hs (ix2 (0 : Fin 1) p) (ix2 k p) (fun a => match a with
    | ⟨0, _⟩ => by show k.val = off 0 + 0; omega
    | ⟨1, _⟩ => by show p.val = off 1 + p.val; omega)).trans ?_
  rfl

section
variable (W : Valuation τ sig (Elt Ideal))

theorem after1_v34 : StableHlo.after (Gen.hostOps1 (F := Ideal)) W (Proc.devRef .tc main_v34)
    = aggKv256 (W (Proc.devRef .tc main_v1)) (W (Proc.devRef .tc main_v3)) (W (Proc.devRef .tc main_v23)) := by
  unfold aggKv256
  after_results_simp
  rfl

theorem after1_v36 : StableHlo.after (Gen.hostOps1 (F := Ideal)) W (Proc.devRef .tc main_v36)
    = Cert.Spec.slab (W (Proc.devRef .tc main_arg6)) 0 := by
  refine Eq.trans ?_ (slab_read (W (Proc.devRef .tc main_arg6)) 0 ![0, 0, 0] rfl rfl rfl
    slices_S4x256x256_S1x256x256_0_0_0 shapeCasts_S1x256x256_S256x256)
  after_results
  rfl

theorem after1_v38 : StableHlo.after (Gen.hostOps1 (F := Ideal)) W (Proc.devRef .tc main_v38)
    = Cert.Spec.row (W (Proc.devRef .tc main_arg8)) 0 := by
  refine Eq.trans ?_ (row_read (W (Proc.devRef .tc main_arg8)) 0 ![0, 0] rfl rfl
    slices_S4x256_S1x256_0_0 shapeCasts_S1x256_S256)
  after_results
  rfl

theorem after1_v40 : StableHlo.after (Gen.hostOps1 (F := Ideal)) W (Proc.devRef .tc main_v40)
    = Cert.Spec.slab (W (Proc.devRef .tc main_arg7)) 0 := by
  refine Eq.trans ?_ (slab_read (W (Proc.devRef .tc main_arg7)) 0 ![0, 0, 0] rfl rfl rfl
    slices_S4x256x256_S1x256x256_0_0_0 shapeCasts_S1x256x256_S256x256)
  after_results
  rfl

theorem after2_v52 : StableHlo.after (Gen.hostOps2 (F := Ideal)) W (Proc.devRef .tc main_v52)
    = aggKv256 (W (Proc.devRef .tc main_v1)) (W (Proc.devRef .tc main_v3)) (W (Proc.devRef .tc main_v41)) := by
  unfold aggKv256
  after_results_simp
  rfl

theorem after2_v54 : StableHlo.after (Gen.hostOps2 (F := Ideal)) W (Proc.devRef .tc main_v54)
    = Cert.Spec.slab (W (Proc.devRef .tc main_arg6)) 1 := by
  refine Eq.trans ?_ (slab_read (W (Proc.devRef .tc main_arg6)) 1 ![1, 0, 0] rfl rfl rfl
    slices_S4x256x256_S1x256x256_1_0_0 shapeCasts_S1x256x256_S256x256)
  after_results
  rfl

theorem after2_v56 : StableHlo.after (Gen.hostOps2 (F := Ideal)) W (Proc.devRef .tc main_v56)
    = Cert.Spec.row (W (Proc.devRef .tc main_arg8)) 1 := by
  refine Eq.trans ?_ (row_read (W (Proc.devRef .tc main_arg8)) 1 ![1, 0] rfl rfl
    slices_S4x256_S1x256_1_0 shapeCasts_S1x256_S256)
  after_results
  rfl

theorem after2_v58 : StableHlo.after (Gen.hostOps2 (F := Ideal)) W (Proc.devRef .tc main_v58)
    = Cert.Spec.slab (W (Proc.devRef .tc main_arg7)) 1 := by
  refine Eq.trans ?_ (slab_read (W (Proc.devRef .tc main_arg7)) 1 ![1, 0, 0] rfl rfl rfl
    slices_S4x256x256_S1x256x256_1_0_0 shapeCasts_S1x256x256_S256x256)
  after_results
  rfl

theorem after3_v70 : StableHlo.after (Gen.hostOps3 (F := Ideal)) W (Proc.devRef .tc main_v70)
    = aggKv256 (W (Proc.devRef .tc main_v1)) (W (Proc.devRef .tc main_v3)) (W (Proc.devRef .tc main_v59)) := by
  unfold aggKv256
  after_results_simp
  rfl

theorem after3_v72 : StableHlo.after (Gen.hostOps3 (F := Ideal)) W (Proc.devRef .tc main_v72)
    = Cert.Spec.slab (W (Proc.devRef .tc main_arg6)) 2 := by
  refine Eq.trans ?_ (slab_read (W (Proc.devRef .tc main_arg6)) 2 ![2, 0, 0] rfl rfl rfl
    slices_S4x256x256_S1x256x256_2_0_0 shapeCasts_S1x256x256_S256x256)
  after_results
  rfl

theorem after3_v74 : StableHlo.after (Gen.hostOps3 (F := Ideal)) W (Proc.devRef .tc main_v74)
    = Cert.Spec.row (W (Proc.devRef .tc main_arg8)) 2 := by
  refine Eq.trans ?_ (row_read (W (Proc.devRef .tc main_arg8)) 2 ![2, 0] rfl rfl
    slices_S4x256_S1x256_2_0 shapeCasts_S1x256_S256)
  after_results
  rfl

theorem after3_v76 : StableHlo.after (Gen.hostOps3 (F := Ideal)) W (Proc.devRef .tc main_v76)
    = Cert.Spec.slab (W (Proc.devRef .tc main_arg7)) 2 := by
  refine Eq.trans ?_ (slab_read (W (Proc.devRef .tc main_arg7)) 2 ![2, 0, 0] rfl rfl rfl
    slices_S4x256x256_S1x256x256_2_0_0 shapeCasts_S1x256x256_S256x256)
  after_results
  rfl

theorem after4_v88 : StableHlo.after (Gen.hostOps4 (F := Ideal)) W (Proc.devRef .tc main_v88)
    = aggKv256 (W (Proc.devRef .tc main_v1)) (W (Proc.devRef .tc main_v3)) (W (Proc.devRef .tc main_v77)) := by
  unfold aggKv256
  after_results_simp
  rfl

theorem after4_v91 : StableHlo.after (Gen.hostOps4 (F := Ideal)) W (Proc.devRef .tc main_v91)
    = Cert.Spec.slab (W (Proc.devRef .tc main_arg6)) 3 := by
  refine Eq.trans ?_ (slab_read (W (Proc.devRef .tc main_arg6)) 3 ![3, 0, 0] rfl rfl rfl
    slices_S4x256x256_S1x256x256_3_0_0 shapeCasts_S1x256x256_S256x256)
  after_results
  rfl

theorem after4_v93 : StableHlo.after (Gen.hostOps4 (F := Ideal)) W (Proc.devRef .tc main_v93)
    = Cert.Spec.row (W (Proc.devRef .tc main_arg8)) 3 := by
  refine Eq.trans ?_ (row_read (W (Proc.devRef .tc main_arg8)) 3 ![3, 0] rfl rfl
    slices_S4x256_S1x256_3_0 shapeCasts_S1x256_S256)
  after_results
  rfl

theorem after4_v95 : StableHlo.after (Gen.hostOps4 (F := Ideal)) W (Proc.devRef .tc main_v95)
    = Cert.Spec.slab (W (Proc.devRef .tc main_arg7)) 3 := by
  refine Eq.trans ?_ (slab_read (W (Proc.devRef .tc main_arg7)) 3 ![3, 0, 0] rfl rfl rfl
    slices_S4x256x256_S1x256x256_3_0_0 shapeCasts_S1x256x256_S256x256)
  after_results
  rfl

theorem after4_v89 : StableHlo.after (Gen.hostOps4 (F := Ideal)) W (Proc.devRef .tc main_v89)
    = fun i => W (Proc.devRef .tc main_arg2) (ix1 (i 0)) := by
  refine Eq.trans (b := broadcastInDim S50000x1 ![0] bcast_S50000_S50000x1_0 (W (Proc.devRef .tc main_arg2))) ?_ ?_
  · after_results
  · funext i
    exact broadcastInDim_apply _ bcast_S50000_S50000x1_0 _ i (ix1 (i 0)) (fun a => match a with
      | ⟨0, _⟩ => by
        show (i 0).val = if (50000 : ℕ) = 1 then 0 else (i 0).val
        rw [if_neg (by decide)])

theorem after0_v1 : StableHlo.after (Gen.hostOps0 (F := Ideal)) W (Proc.devRef .tc main_v1)
    = srcv (W (Proc.devRef .tc main_arg1)) := by
  unfold srcv
  after_results_simp
  rfl

theorem after0_v3 : StableHlo.after (Gen.hostOps0 (F := Ideal)) W (Proc.devRef .tc main_v3)
    = dstv (W (Proc.devRef .tc main_arg1)) := by
  unfold dstv
  after_results_simp
  rfl

theorem after0_v12 : StableHlo.after (Gen.hostOps0 (F := Ideal)) W (Proc.devRef .tc main_v12)
    = invK (W (Proc.devRef .tc main_arg1)) := by
  unfold invK DK degK dstv
  after_results_simp
  rfl

theorem after0_v22 : StableHlo.after (Gen.hostOps0 (F := Ideal)) W (Proc.devRef .tc main_v22)
    = aggK128 (W (Proc.devRef .tc main_arg1)) (W (Proc.devRef .tc main_arg0)) := by
  unfold aggK128 aggKv128 srcv dstv
  after_results_simp
  rfl

end

end Cert.KernelIdeal.KVal
-- ==== Proof.ValR0.lean ====
import proofs.«420935_j80238579024178_3_alg».proof.Proof.FrR0
import proofs.«420935_j80238579024178_3_alg».proof.Proof.Spec
import proofs.«420935_j80238579024178_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr.Val0

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

theorem lhs_mm_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_mm_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_mm_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_mm_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

theorem mm_apply (a : FVec Ideal S2000x128 .bf16) (b : FVec Ideal S128x256 .bf16) (p : Fin 2000) (q : Fin 256) :
    matmul dot_S2000x128_S128x256_S2000x256_1_0_0_1_n_n none a b (constant (F := Ideal) S2000x256 .f32 0x00000000#32) (ix2 p q)
      = ∑ k : Fin 128, a (ix2 p k) * b (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

theorem col_apply (v2 : Vec Ideal S2000x1 .f32) (p : Fin 2000) (k : Fin 128) :
    broadcastTo S2000x128 v2 broadcasts_S2000x1_S2000x128 (ix2 p k) = v2 (ix2 p 0) :=
  Cert.LibColumn.broadcastTo_a1_ab_apply v2 _ p k

theorem bias_apply (v16 : Vec Ideal S256 .f32) (p : Fin 2000) (q : Fin 256) :
    broadcastTo S2000x256 (shapeCast S1x256 (shapeCast S1x256 v16 shapeCasts_S256_S1x256) shapeCasts_S1x256_S1x256) broadcasts_S1x256_S2000x256 (ix2 p q)
      = v16 (ix1 q) := by
  rw [shapeCast_self]
  exact (broadcastTo_1b_ab_apply _ _ p q).trans (shapeCast_a_1a_apply v16 _ 0 q)

theorem pay_apply (v0 : Vec Ideal S2000x128 .f32) (v2 : Vec Ideal S2000x1 .f32) (v7 : Vec Ideal S2000x128 .f32)
    (v9 : Vec Ideal S128x256 .f32) (v11 : Vec Ideal S128x256 .f32) (v16 : Vec Ideal S256 .f32) (p : Fin 2000) (q : Fin 256) :
    k0_pay1 (F := Ideal) v0 v2 v7 v9 v11 v16 (ix2 p q)
      = max (((∑ k : Fin 128, (v0 (ix2 p k) * v2 (ix2 p 0)) * v9 (ix2 k q)) + ∑ k : Fin 128, v7 (ix2 p k) * v11 (ix2 k q)) + v16 (ix1 q)) 0 := by
  unfold k0_pay1
  simp only [truncf_apply, maximumf_apply, addf_apply, broadcast_apply]
  rw [mm_apply, mm_apply, bias_apply]
  simp only [truncf_apply, mulf_apply, shapeCast_self]
  rw [show (Scalar.ofBits (F := Ideal) .f32 0x00000000#32 : Ideal .f32) = 0 from Ideal.ofBits_zero_f32]
  refine congrArg (fun s => max (s + (∑ k : Fin 128, v7 (ix2 p k) * v11 (ix2 k q)) + v16 (ix1 q)) 0) (Finset.sum_congr rfl fun k _ => ?_)
  exact congrArg (fun z => v0 (ix2 p k) * z * v9 (ix2 k q)) (col_apply v2 p k)

theorem pay_eq_layK (A0 : Cert.Spec.Arr2 50000 128) (A1 : Cert.Spec.Arr2 50000 1) (A2 : Cert.Spec.Arr2 50000 128)
    (A3 : Cert.Spec.Arr2 128 256) (A4 : Cert.Spec.Arr1 256) (A5 : Cert.Spec.Arr2 128 256)
    (x0 : Vec Ideal S2000x128 .f32) (x1 : Vec Ideal S2000x1 .f32) (x2 : Vec Ideal S2000x128 .f32)
    (x3 : Vec Ideal S128x256 .f32) (x4 : Vec Ideal S256 .f32) (x5 : Vec Ideal S128x256 .f32)
    (i : S50000x256.Idx) (p : Fin 2000) (q : Fin 256)
    (h0 : ∀ k : Fin 128, x0 (ix2 p k) = A0 (ix2 (i 0) k)) (h1 : x1 (ix2 p 0) = A1 (ix2 (i 0) 0))
    (h2 : ∀ k : Fin 128, x2 (ix2 p k) = A2 (ix2 (i 0) k)) (h3 : ∀ k : Fin 128, x3 (ix2 k q) = A3 (ix2 k (i 1)))
    (h4 : x4 (ix1 q) = A4 (ix1 (i 1))) (h5 : ∀ k : Fin 128, x5 (ix2 k q) = A5 (ix2 k (i 1))) :
    k0_pay1 (F := Ideal) x0 x1 x2 x3 x5 x4 (ix2 p q) = Cert.Spec.layK A0 A1 A2 A3 A4 A5 i := by
  rw [pay_apply]
  unfold Cert.Spec.layK
  simp only [h0, h1, h2, h3, h4, h5]

theorem hz : (![0, 0] : Fin 2 → Nat) = fun _ => 0 := funext fun a => by fin_cases a <;> rfl
theorem hz1 : (![0] : Fin 1 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section
variable (V : (c : Dev nD) → (b : Ref sig .tc) → Buf (Elt Ideal) ((c : Thread nD τ).loc b))

theorem rd0 (c : Dev nD) (t : Fin cfg0.N) (p : Fin 2000) (k : Fin 128) (q : Fin 256) :
    iblk0 V c 0 t (ix2 p k) = V c (Pipeline.arrRef spec0 0) (ix2 ((((cfg0.win 6).blk t).view.emb (ix2 p q)) 0) k) := by
  obtain ⟨e00, e01, e10, e11, e20, e21, e30, e31, e40, e50, e51, e60, e61⟩ := idx_facts t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 2000 + 1 * p.val = win0_6.index t (0 : Fin 2) * 2000 + 1 * p.val; omega
  | ⟨1, _⟩ => show win0_0.index t (1 : Fin 2) * 128 + 1 * k.val = k.val; omega

theorem rd1 (c : Dev nD) (t : Fin cfg0.N) (p : Fin 2000) (q : Fin 256) :
    iblk0 V c 1 t (ix2 p 0) = V c (Pipeline.arrRef spec0 1) (ix2 ((((cfg0.win 6).blk t).view.emb (ix2 p q)) 0) 0) := by
  obtain ⟨e00, e01, e10, e11, e20, e21, e30, e31, e40, e50, e51, e60, e61⟩ := idx_facts t
  show V c (Pipeline.arrRef spec0 1) (((cfg0.win 1).blk t).view.emb (ix2 p 0)) = _
  refine congrArg (V c (Pipeline.arrRef spec0 1)) (funext fun a => Fin.ext ?_)
  match a with
  | ⟨0, _⟩ => show win0_1.index t (0 : Fin 2) * 2000 + 1 * p.val = win0_6.index t (0 : Fin 2) * 2000 + 1 * p.val; omega
  | ⟨1, _⟩ => show win0_1.index t (1 : Fin 2) * 1 + 1 * 0 = 0; omega

theorem rd2 (c : Dev nD) (t : Fin cfg0.N) (p : Fin 2000) (k : Fin 128) (q : Fin 256) :
    iblk0 V c 2 t (ix2 p k) = V c (Pipeline.arrRef spec0 2) (ix2 ((((cfg0.win 6).blk t).view.emb (ix2 p q)) 0) k) := by
  obtain ⟨e00, e01, e10, e11, e20, e21, e30, e31, e40, e50, e51, e60, e61⟩ := idx_facts t
  show V c (Pipeline.arrRef spec0 2) (((cfg0.win 2).blk t).view.emb (ix2 p k)) = _
  refine congrArg (V c (Pipeline.arrRef spec0 2)) (funext fun a => Fin.ext ?_)
  match a with
  | ⟨0, _⟩ => show win0_2.index t (0 : Fin 2) * 2000 + 1 * p.val = win0_6.index t (0 : Fin 2) * 2000 + 1 * p.val; omega
  | ⟨1, _⟩ => show win0_2.index t (1 : Fin 2) * 128 + 1 * k.val = k.val; omega

theorem rd3 (c : Dev nD) (t : Fin cfg0.N) (p : Fin 2000) (k : Fin 128) (q : Fin 256) :
    iblk0 V c 3 t (ix2 k q) = V c (Pipeline.arrRef spec0 3) (ix2 k ((((cfg0.win 6).blk t).view.emb (ix2 p q)) 1)) := by
  obtain ⟨e00, e01, e10, e11, e20, e21, e30, e31, e40, e50, e51, e60, e61⟩ := idx_facts t
  show V c (Pipeline.arrRef spec0 3) (((cfg0.win 3).blk t).view.emb (ix2 k q)) = _
  refine congrArg (V c (Pipeline.arrRef spec0 3)) (funext fun a => Fin.ext ?_)
  match a with
  | ⟨0, _⟩ => show win0_3.index t (0 : Fin 2) * 128 + 1 * k.val = k.val; omega
  | ⟨1, _⟩ => show win0_3.index t (1 : Fin 2) * 256 + 1 * q.val = win0_6.index t (1 : Fin 2) * 256 + 1 * q.val; omega

theorem rd4 (c : Dev nD) (t : Fin cfg0.N) (p : Fin 2000) (q : Fin 256) :
    iblk0 V c 4 t (ix1 q) = V c (Pipeline.arrRef spec0 4) (ix1 ((((cfg0.win 6).blk t).view.emb (ix2 p q)) 1)) := by
  obtain ⟨e00, e01, e10, e11, e20, e21, e30, e31, e40, e50, e51, e60, e61⟩ := idx_facts t
  show V c (Pipeline.arrRef spec0 4) (((cfg0.win 4).blk t).view.emb (ix1 q)) = _
  refine congrArg (V c (Pipeline.arrRef spec0 4)) (funext fun a => Fin.ext ?_)
  match a with
  | ⟨0, _⟩ => show win0_4.index t (0 : Fin 1) * 256 + 1 * q.val = win0_6.index t (1 : Fin 2) * 256 + 1 * q.val; omega

theorem rd5 (c : Dev nD) (t : Fin cfg0.N) (p : Fin 2000) (k : Fin 128) (q : Fin 256) :
    iblk0 V c 5 t (ix2 k q) = V c (Pipeline.arrRef spec0 5) (ix2 k ((((cfg0.win 6).blk t).view.emb (ix2 p q)) 1)) := by
  obtain ⟨e00, e01, e10, e11, e20, e21, e30, e31, e40, e50, e51, e60, e61⟩ := idx_facts t
  show V c (Pipeline.arrRef spec0 5) (((cfg0.win 5).blk t).view.emb (ix2 k q)) = _
  refine congrArg (V c (Pipeline.arrRef spec0 5)) (funext fun a => Fin.ext ?_)
  match a with
  | ⟨0, _⟩ => show win0_5.index t (0 : Fin 2) * 128 + 1 * k.val = k.val; omega
  | ⟨1, _⟩ => show win0_5.index t (1 : Fin 2) * 256 + 1 * q.val = win0_6.index t (1 : Fin 2) * 256 + 1 * q.val; omega

theorem flushed_eq (c : Dev nD) (t : Fin cfg0.N) :
    (dat0 (F := Ideal) V c).flushed 6 t = ((cfg0.win 6).blk t).view.read (Elt Ideal)
      (Cert.Spec.layK (C := 128) (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 (F := Ideal) V c).after 6 t) = _
  rw [after0_6]
  unfold out0_6
  rw [View.canon_unit_zero hz]
  simp only [View.ld_unit_zero (S := S2000x128) hz, View.ld_unit_zero (S := S2000x1) hz, View.ld_unit_zero (S := S128x256) hz,
    View.ld_unit_zero (S := S256) hz1]
  funext j
  obtain ⟨p, q, rfl⟩ : ∃ (p : Fin 2000) (q : Fin 256), j = ix2 p q := ⟨j 0, j 1, eq_ix2 j⟩
  exact pay_eq_layK _ _ _ _ _ _ _ _ _ _ _ _ (((cfg0.win 6).blk t).view.emb (ix2 p q)) p q
    (fun k => rd0 V c t p k q) (rd1 V c t p q) (fun k => rd2 V c t p k q) (fun k => rd3 V c t p k q) (rd4 V c t p q) (fun k => rd5 V c t p k q)

theorem mem_blk (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v23).slice (win0_6.rect t)).set ↔ _
  rw [View.set_slice_whole, Rect.mem_set_unit]
  exact Iff.rfl

theorem cover (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have ht : (i 0).val / 2000 < cfg0.N := lt_of_lt_of_eq (by omega : (i 0).val / 2000 < 25) N_0.symm
  obtain ⟨e00, e01, e10, e11, e20, e21, e30, e31, e40, e50, e51, e60, e61⟩ := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    have e : win0_6.index ⟨(i 0).val / 2000, ht⟩ (0 : Fin 2) = (i 0).val / 2000 := e60
    omega
  | ⟨1, _⟩ =>
    show win0_6.index ⟨(i 0).val / 2000, ht⟩ (1 : Fin 2) * 256 ≤ (i 1).val ∧ (i 1).val < win0_6.index ⟨(i 0).val / 2000, ht⟩ (1 : Fin 2) * 256 + 256
    omega

end

end Cert.KernelIdeal.Fr.Val0

namespace Cert.KernelIdeal.Fr

open Cert.KernelIdeal Cert.KernelIdeal.Gen
open Idealize.ShloMosaic Idealize.ShloMosaic.TcCoe Idealize.SL.Sem
open Idealize.ShloMosaic.Pipeline (Dat)

theorem arrAt0 (V : (c : Dev nD) → (b : Ref sig .tc) → Buf (Elt Ideal) ((c : Thread nD τ).loc b)) (c : Dev nD) :
    (dat0 (F := Ideal) V c).arrAt 6 cfg0.N
      = Cert.Spec.layK (C := 128) (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 (F := Ideal) V c).arrAt_eq_of_cover 6 _ (fun t _ => Val0.flushed_eq V c t) Val0.cover

end Cert.KernelIdeal.Fr
-- ==== Proof.ValR1.lean ====
import proofs.«420935_j80238579024178_3_alg».proof.Proof.FrR1
import proofs.«420935_j80238579024178_3_alg».proof.Proof.Spec
import proofs.«420935_j80238579024178_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

namespace Val1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem dotL_row1 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem dotL_col1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem dotR_row1 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem dotR_col1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem mm1_apply {φ₁ φ₂ : FTy} (L : FVec Ideal S2000x256 φ₁) (R : FVec Ideal S256x256 φ₂) (p : Fin 2000) (q : Fin 256) :
    FloatOps.matmul dot_S2000x256_S256x256_S2000x256_1_0_0_1_n_n none L R (constant S2000x256 .f32 0x00000000#32) (ix2 p q)
      = ∑ k : Fin 256, L (ix2 p k) * R (ix2 k q) := by
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact dotL_row1 _ _
    | ⟨1, _⟩ => exact (dotL_col1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (dotR_row1 _ _).trans hk
    | ⟨1, _⟩ => exact dotR_col1 _ _)
  rw [el, er]

theorem pay1_apply (v0 : Vec Ideal S2000x256 .f32) (v2 : Vec Ideal S2000x1 .f32) (v7 : Vec Ideal S2000x256 .bf16)
    (v9 : Vec Ideal S256x256 .f32) (v12 : Vec Ideal S256x256 .f32) (v18 : Vec Ideal S256 .f32) (p : Fin 2000) (q : Fin 256) :
    k1_pay1 (F := Ideal) v0 v2 v7 v9 v12 v18 (ix2 p q)
      = max (((∑ k : Fin 256, (v0 (ix2 p k) * v2 (ix2 p 0)) * v9 (ix2 k q)) + ∑ k : Fin 256, v7 (ix2 p k) * v12 (ix2 k q))
          + v18 (ix1 q)) 0 := by
  unfold k1_pay1
  simp only [shapeCast_self]
  simp only [truncf_apply, maximumf_apply, addf_apply, broadcast_apply, matmul]
  rw [mm1_apply, mm1_apply, broadcastTo_1b_ab_apply, shapeCast_a_1a_apply]
  simp only [truncf_apply, mulf_apply]
  simp only [Cert.LibColumn.broadcastTo_a1_ab_apply]
  exact congrArg (max _) Ideal.ofBits_zero_f32

theorem payRows1 (x0 : Vec Ideal S2000x256 .f32) (x1 : Vec Ideal S2000x1 .f32) (x2 : Vec Ideal S2000x256 .bf16)
    (x3 : Vec Ideal S256x256 .f32) (x4 : Vec Ideal S256 .f32) (x5 : Vec Ideal S256x256 .f32)
    (A0 : Cert.Spec.Arr2 50000 256) (A1 : Cert.Spec.Arr2 50000 1) (A2 : Cert.Spec.Arr2 50000 256)
    (A3 : Cert.Spec.Arr2 256 256) (A4 : Cert.Spec.Arr1 256) (A5 : Cert.Spec.Arr2 256 256) (n : ℕ)
    (h0 : ∀ (p : Fin 2000) (k : Fin 256) (r : Fin 50000), r.val = n * 2000 + p.val → x0 (ix2 p k) = A0 (ix2 r k))
    (h1 : ∀ (p : Fin 2000) (k : Fin 1) (r : Fin 50000), r.val = n * 2000 + p.val → x1 (ix2 p k) = A1 (ix2 r k))
    (h2 : ∀ (p : Fin 2000) (k : Fin 256) (r : Fin 50000), r.val = n * 2000 + p.val → x2 (ix2 p k) = A2 (ix2 r k))
    (h3 : ∀ (k q : Fin 256), x3 (ix2 k q) = A3 (ix2 k q)) (h4 : ∀ q : Fin 256, x4 (ix1 q) = A4 (ix1 q))
    (h5 : ∀ (k q : Fin 256), x5 (ix2 k q) = A5 (ix2 k q))
    (p : Fin 2000) (q : Fin 256) (r : Fin 50000) (hr : r.val = n * 2000 + p.val) :
    k1_pay1 (F := Ideal) x0 x1 x2 x3 x5 x4 (ix2 p q) = Cert.Spec.layK (C := 256) A0 A1 A2 A3 A4 A5 (ix2 r q) := by
  rw [pay1_apply]
  show _ = max (((∑ k : Fin 256, (A0 (ix2 r k) * A1 (ix2 r 0)) * A3 (ix2 k q)) + ∑ k : Fin 256, A2 (ix2 r k) * A5 (ix2 k q))
      + A4 (ix1 q)) 0
  simp only [h0 p _ r hr, h1 p _ r hr, h2 p _ r hr, h3, h4, h5]

section Blocks
variable (V : (c : Dev nD) → (b : Ref sig .tc) → Buf (Elt Ideal) ((c : Thread nD τ).loc b))

theorem hzPair : (![0, 0] : Fin 2 → Nat) = fun _ => 0 := funext fun a => by fin_cases a <;> rfl
theorem hzSingle : (![0] : Fin 1 → Nat) = fun _ => 0 := funext fun a => by fin_cases a <;> rfl

theorem idx_facts1 : ∀ t : Fin cfg1.N, t.val < 25
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem iblk1_0_apply (c : Dev nD) (t : Fin cfg1.N) (p : Fin 2000) (k : Fin 256) (r : Fin 50000) (hr : r.val = t.val * 2000 + p.val) :
    (iblk1 V c 0 t : Vec Ideal S2000x256 .f32) (ix2 p k) = (V c (Pipeline.arrRef spec1 0) : S50000x256.Idx → EReal) (ix2 r k) := by
  obtain ⟨-, e0, e1, -⟩ := idx_facts1 t
  unfold iblk1
  rw [View.read_apply]
  show (V c (Pipeline.arrRef spec1 0) : S50000x256.Idx → EReal) _ = (V c (Pipeline.arrRef spec1 0) : S50000x256.Idx → EReal) _
  refine congrArg (V c (Pipeline.arrRef spec1 0) : S50000x256.Idx → EReal) (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

theorem iblk1_1_apply (c : Dev nD) (t : Fin cfg1.N) (p : Fin 2000) (k : Fin 1) (r : Fin 50000) (hr : r.val = t.val * 2000 + p.val) :
    (iblk1 V c 1 t : Vec Ideal S2000x1 .f32) (ix2 p k) = (V c (Pipeline.arrRef spec1 1) : S50000x1.Idx → EReal) (ix2 r k) := by
  obtain ⟨-, -, -, e0, e1, -⟩ := idx_facts1 t
  unfold iblk1
  rw [View.read_apply]
  show (V c (Pipeline.arrRef spec1 1) : S50000x1.Idx → EReal) _ = (V c (Pipeline.arrRef spec1 1) : S50000x1.Idx → EReal) _
  refine congrArg (V c (Pipeline.arrRef spec1 1) : S50000x1.Idx → EReal) (funext fun a => Fin.ext ?_)
  match a with
  | ⟨0, _⟩ => show win1_1.index t (0 : Fin 2) * 2000 + 1 * p.val = r.val; omega
  | ⟨1, _⟩ => show win1_1.index t (1 : Fin 2) * 1 + 1 * k.val = k.val; omega

theorem iblk1_2_apply (c : Dev nD) (t : Fin cfg1.N) (p : Fin 2000) (k : Fin 256) (r : Fin 50000) (hr : r.val = t.val * 2000 + p.val) :
    (iblk1 V c 2 t : Vec Ideal S2000x256 .bf16) (ix2 p k) = (V c (Pipeline.arrRef spec1 2) : S50000x256.Idx → EReal) (ix2 r k) := by
  obtain ⟨-, -, -, -, -, e0, e1, -⟩ := idx_facts1 t
  unfold iblk1
  rw [View.read_apply]
  show (V c (Pipeline.arrRef spec1 2) : S50000x256.Idx → EReal) _ = (V c (Pipeline.arrRef spec1 2) : S50000x256.Idx → EReal) _
  refine congrArg (V c (Pipeline.arrRef spec1 2) : S50000x256.Idx → EReal) (funext fun a => Fin.ext ?_)
  match a with
  | ⟨0, _⟩ => show win1_2.index t (0 : Fin 2) * 2000 + 1 * p.val = r.val; omega
  | ⟨1, _⟩ => show win1_2.index t (1 : Fin 2) * 256 + 1 * k.val = k.val; omega

theorem iblk1_3_apply (c : Dev nD) (t : Fin cfg1.N) (k q : Fin 256) :
    (iblk1 V c 3 t : Vec Ideal S256x256 .f32) (ix2 k q) = (V c (Pipeline.arrRef spec1 3) : S256x256.Idx → EReal) (ix2 k q) := by
  obtain ⟨-, -, -, -, -, -, -, e0, e1, -⟩ := idx_facts1 t
  unfold iblk1
  rw [View.read_apply]
  show (V c (Pipeline.arrRef spec1 3) : S256x256.Idx → EReal) _ = (V c (Pipeline.arrRef spec1 3) : S256x256.Idx → EReal) _
  refine congrArg (V c (Pipeline.arrRef spec1 3) : S256x256.Idx → EReal) (funext fun a => Fin.ext ?_)
  match a with
  | ⟨0, _⟩ => show win1_3.index t (0 : Fin 2) * 256 + 1 * k.val = k.val; omega
  | ⟨1, _⟩ => show win1_3.index t (1 : Fin 2) * 256 + 1 * q.val = q.val; omega

theorem iblk1_4_apply (c : Dev nD) (t : Fin cfg1.N) (q : Fin 256) :
    (iblk1 V c 4 t : Vec Ideal S256 .f32) (ix1 q) = (V c (Pipeline.arrRef spec1 4) : S256.Idx → EReal) (ix1 q) := by
  obtain ⟨-, -, -, -, -, -, -, -, -, e0, -⟩ := idx_facts1 t
  unfold iblk1
  rw [View.read_apply]
  show (V c (Pipeline.arrRef spec1 4) : S256.Idx → EReal) _ = (V c (Pipeline.arrRef spec1 4) : S256.Idx → EReal) _
  refine congrArg (V c (Pipeline.arrRef spec1 4) : S256.Idx → EReal) (funext fun a => Fin.ext ?_)
  match a with
  | ⟨0, _⟩ => show win1_4.index t (0 : Fin 1) * 256 + 1 * q.val = q.val; omega

theorem iblk1_5_apply (c : Dev nD) (t : Fin cfg1.N) (k q : Fin 256) :
    (iblk1 V c 5 t : Vec Ideal S256x256 .f32) (ix2 k q) = (V c (Pipeline.arrRef spec1 5) : S256x256.Idx → EReal) (ix2 k q) := by
  obtain ⟨-, -, -, -, -, -, -, -, -, -, e0, e1, -⟩ := idx_facts1 t
  unfold iblk1
  rw [View.read_apply]
  show (V c (Pipeline.arrRef spec1 5) : S256x256.Idx → EReal) _ = (V c (Pipeline.arrRef spec1 5) : S256x256.Idx → EReal) _
  refine congrArg (V c (Pipeline.arrRef spec1 5) : S256x256.Idx → EReal) (funext fun a => Fin.ext ?_)
  match a with
  | ⟨0, _⟩ => show win1_5.index t (0 : Fin 2) * 256 + 1 * k.val = k.val; omega
  | ⟨1, _⟩ => show win1_5.index t (1 : Fin 2) * 256 + 1 * q.val = q.val; omega

theorem blkPoint1 (c : Dev nD) (t : Fin cfg1.N) (p : Fin 2000) (q : Fin 256) :
    k1_pay1 (F := Ideal) (iblk1 V c 0 t) (iblk1 V c 1 t) (iblk1 V c 2 t) (iblk1 V c 3 t) (iblk1 V c 5 t) (iblk1 V c 4 t) (ix2 p q)
      = (Cert.Spec.layK (C := 256) (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) (((cfg1.win 6).blk t).view.emb (ix2 p q)) := by
  obtain ⟨hN, -, -, -, -, -, -, -, -, -, -, -, o0, o1⟩ := idx_facts1 t
  have hlt : t.val * 2000 + p.val < 50000 := by have := p.isLt; omega
  have he : ((cfg1.win 6).blk t).view.emb (ix2 p q) = (ix2 (⟨t.val * 2000 + p.val, hlt⟩ : Fin 50000) q : S50000x256.Idx) :=
    funext fun a => Fin.ext (by
      match a with
      | ⟨0, _⟩ => show win1_6.index t (0 : Fin 2) * 2000 + 1 * p.val = t.val * 2000 + p.val; omega
      | ⟨1, _⟩ => show win1_6.index t (1 : Fin 2) * 256 + 1 * q.val = q.val; omega)
  refine (payRows1 _ _ _ _ _ _ _ _ _ _ _ _ t.val (fun p k r hr => iblk1_0_apply V c t p k r hr)
    (fun p k r hr => iblk1_1_apply V c t p k r hr) (fun p k r hr => iblk1_2_apply V c t p k r hr)
    (fun k q => iblk1_3_apply V c t k q) (fun q => iblk1_4_apply V c t q) (fun k q => iblk1_5_apply V c t k q) p q ⟨_, hlt⟩ rfl).trans ?_
  exact congrArg (Cert.Spec.layK (C := 256) (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) he.symm

theorem blkIdx1 (c : Dev nD) (t : Fin cfg1.N) (j : S2000x256.Idx) :
    k1_pay1 (F := Ideal) (iblk1 V c 0 t) (iblk1 V c 1 t) (iblk1 V c 2 t) (iblk1 V c 3 t) (iblk1 V c 5 t) (iblk1 V c 4 t) j
      = (Cert.Spec.layK (C := 256) (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) (((cfg1.win 6).blk t).view.emb j) := by
  obtain ⟨p, q, rfl⟩ : ∃ (p : Fin 2000) (q : Fin 256), j = ix2 p q := ⟨j 0, j 1, eq_ix2 j⟩
  exact blkPoint1 V c t p q

theorem out1_eq (x0 : Vec Ideal S2000x256 .f32) (x1 : Vec Ideal S2000x1 .f32) (x2 : Vec Ideal S2000x256 .bf16)
    (x3 : Vec Ideal S256x256 .f32) (x4 : Vec Ideal S256 .f32) (x5 : Vec Ideal S256x256 .f32) :
    out1_6 (F := Ideal) x0 x1 x2 x3 x4 x5 = k1_pay1 (F := Ideal) x0 x1 x2 x3 x5 x4 := by
  unfold out1_6
  rw [View.canon_unit_zero hzPair]
  simp only [View.ld_unit_zero (S := S2000x256) hzPair, View.ld_unit_zero (S := S2000x1) hzPair,
    View.ld_unit_zero (S := S256x256) hzPair, View.ld_unit_zero (S := S256) hzSingle]

theorem flushed1_eq (c : Dev nD) (t : Fin cfg1.N) :
    (dat1 (F := Ideal) V c).flushed 6 t = ((cfg1.win 6).blk t).view.read (Elt Ideal)
      (Cert.Spec.layK (C := 256) (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6, out1_eq]
  exact funext (blkIdx1 V c t)

theorem mem_blk1 (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole (Pipeline.arrRef spec1 6)).slice (win1_6.rect t)).set ↔ _
  rw [View.set_slice_whole, Rect.mem_set_unit]
  exact Iff.rfl

theorem cover1 (i : S50000x256.Idx) : ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by show (i 0).val / 2000 < 25; omega⟩, rfl⟩
  obtain ⟨hN, -, -, -, -, -, -, -, -, -, -, -, o0, o1⟩ := idx_facts1 t
  refine ⟨t, flush1_6 t, ?_⟩
  rw [mem_blk1]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 256 ≤ (i 1).val ∧ (i 1).val < win1_6.index t (1 : Fin 2) * 256 + 256
    omega

end Blocks

end Val1

open Cert.KernelIdeal Cert.KernelIdeal.Gen Idealize.ShloMosaic Idealize.ShloMosaic.TcCoe Idealize.SL.Sem in

theorem arrAt1 (V : (c : Dev nD) → (b : Ref sig .tc) → Buf (Elt Ideal) ((c : Thread nD τ).loc b)) (c : Dev nD) :
    (dat1 (F := Ideal) V c).arrAt 6 cfg1.N = Cert.Spec.layK (C := 256) (V c (Pipeline.arrRef spec1 0)) (V c (Pipeline.arrRef spec1 1))
      (V c (Pipeline.arrRef spec1 2)) (V c (Pipeline.arrRef spec1 3)) (V c (Pipeline.arrRef spec1 4)) (V c (Pipeline.arrRef spec1 5)) :=
  (dat1 (F := Ideal) V c).arrAt_eq_of_cover 6 _ (fun t _ => Val1.flushed1_eq V c t) (fun i => Val1.cover1 i)

end Cert.KernelIdeal.Fr
-- ==== Proof.ValR2.lean ====
import proofs.«420935_j80238579024178_3_alg».proof.Proof.FrR2
import proofs.«420935_j80238579024178_3_alg».proof.Proof.ValR1
import proofs.«420935_j80238579024178_3_alg».proof.Proof.Spec
import proofs.«420935_j80238579024178_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

namespace Val2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Blocks
variable (V : (c : Dev nD) → (b : Ref sig .tc) → Buf (Elt Ideal) ((c : Thread nD τ).loc b))

theorem hzPair : (![0, 0] : Fin 2 → Nat) = fun _ => 0 := funext fun a => by fin_cases a <;> rfl
theorem hzSingle : (![0] : Fin 1 → Nat) = fun _ => 0 := funext fun a => by fin_cases a <;> rfl

theorem idx_facts2 : ∀ t : Fin cfg2.N, t.val < 25
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem iblk2_0_apply (c : Dev nD) (t : Fin cfg2.N) (p : Fin 2000) (k : Fin 256) (r : Fin 50000) (hr : r.val = t.val * 2000 + p.val) :
    (iblk2 V c 0 t : Vec Ideal S2000x256 .f32) (ix2 p k) = (V c (Pipeline.arrRef spec2 0) : S50000x256.Idx → EReal) (ix2 r k) := by
  obtain ⟨-, e0, e1, -⟩ := idx_facts2 t
  unfold iblk2
  rw [View.read_apply]
  show (V c (Pipeline.arrRef spec2 0) : S50000x256.Idx → EReal) _ = (V c (Pipeline.arrRef spec2 0) : S50000x256.Idx → EReal) _
  refine congrArg (V c (Pipeline.arrRef spec2 0) : S50000x256.Idx → EReal) (funext fun a => Fin.ext ?_)
  match a with
  | ⟨0, _⟩ => show win2_0.index t (0 : Fin 2) * 2000 + 1 * p.val = r.val; omega
  | ⟨1, _⟩ => show win2_0.index t (1 : Fin 2) * 256 + 1 * k.val = k.val; omega

theorem iblk2_1_apply (c : Dev nD) (t : Fin cfg2.N) (p : Fin 2000) (k : Fin 1) (r : Fin 50000) (hr : r.val = t.val * 2000 + p.val) :
    (iblk2 V c 1 t : Vec Ideal S2000x1 .f32) (ix2 p k) = (V c (Pipeline.arrRef spec2 1) : S50000x1.Idx → EReal) (ix2 r k) := by
  obtain ⟨-, -, -, e0, e1, -⟩ := idx_facts2 t
  unfold iblk2
  rw [View.read_apply]
  show (V c (Pipeline.arrRef spec2 1) : S50000x1.Idx → EReal) _ = (V c (Pipeline.arrRef spec2 1) : S50000x1.Idx → EReal) _
  refine congrArg (V c (Pipeline.arrRef spec2 1) : S50000x1.Idx → EReal) (funext fun a => Fin.ext ?_)
  match a with
  | ⟨0, _⟩ => show win2_1.index t (0 : Fin 2) * 2000 + 1 * p.val = r.val; omega
  | ⟨1, _⟩ => show win2_1.index t (1 : Fin 2) * 1 + 1 * k.val = k.val; omega

theorem iblk2_2_apply (c : Dev nD) (t : Fin cfg2.N) (p : Fin 2000) (k : Fin 256) (r : Fin 50000) (hr : r.val = t.val * 2000 + p.val) :
    (iblk2 V c 2 t : Vec Ideal S2000x256 .bf16) (ix2 p k) = (V c (Pipeline.arrRef spec2 2) : S50000x256.Idx → EReal) (ix2 r k) := by
  obtain ⟨-, -, -, -, -, e0, e1, -⟩ := idx_facts2 t
  unfold iblk2
  rw [View.read_apply]
  show (V c (Pipeline.arrRef spec2 2) : S50000x256.Idx → EReal) _ = (V c (Pipeline.arrRef spec2 2) : S50000x256.Idx → EReal) _
  refine congrArg (V c (Pipeline.arrRef spec2 2) : S50000x256.Idx → EReal) (funext fun a => Fin.ext ?_)
  match a with
  | ⟨0, _⟩ => show win2_2.index t (0 : Fin 2) * 2000 + 1 * p.val = r.val; omega
  | ⟨1, _⟩ => show win2_2.index t (1 : Fin 2) * 256 + 1 * k.val = k.val; omega

theorem iblk2_3_apply (c : Dev nD) (t : Fin cfg2.N) (k q : Fin 256) :
    (iblk2 V c 3 t : Vec Ideal S256x256 .f32) (ix2 k q) = (V c (Pipeline.arrRef spec2 3) : S256x256.Idx → EReal) (ix2 k q) := by
  obtain ⟨-, -, -, -, -, -, -, e0, e1, -⟩ := idx_facts2 t
  unfold iblk2
  rw [View.read_apply]
  show (V c (Pipeline.arrRef spec2 3) : S256x256.Idx → EReal) _ = (V c (Pipeline.arrRef spec2 3) : S256x256.Idx → EReal) _
  refine congrArg (V c (Pipeline.arrRef spec2 3) : S256x256.Idx → EReal) (funext fun a => Fin.ext ?_)
  match a with
  | ⟨0, _⟩ => show win2_3.index t (0 : Fin 2) * 256 + 1 * k.val = k.val; omega
  | ⟨1, _⟩ => show win2_3.index t (1 : Fin 2) * 256 + 1 * q.val = q.val; omega

theorem iblk2_4_apply (c : Dev nD) (t : Fin cfg2.N) (q : Fin 256) :
    (iblk2 V c 4 t : Vec Ideal S256 .f32) (ix1 q) = (V c (Pipeline.arrRef spec2 4) : S256.Idx → EReal) (ix1 q) := by
  obtain ⟨-, -, -, -, -, -, -, -, -, e0, -⟩ := idx_facts2 t
  unfold iblk2
  rw [View.read_apply]
  show (V c (Pipeline.arrRef spec2 4) : S256.Idx → EReal) _ = (V c (Pipeline.arrRef spec2 4) : S256.Idx → EReal) _
  refine congrArg (V c (Pipeline.arrRef spec2 4) : S256.Idx → EReal) (funext fun a => Fin.ext ?_)
  match a with
  | ⟨0, _⟩ => show win2_4.index t (0 : Fin 1) * 256 + 1 * q.val = q.val; omega

theorem iblk2_5_apply (c : Dev nD) (t : Fin cfg2.N) (k q : Fin 256) :
    (iblk2 V c 5 t : Vec Ideal S256x256 .f32) (ix2 k q) = (V c (Pipeline.arrRef spec2 5) : S256x256.Idx → EReal) (ix2 k q) := by
  obtain ⟨-, -, -, -, -, -, -, -, -, -, e0, e1, -⟩ := idx_facts2 t
  unfold iblk2
  rw [View.read_apply]
  show (V c (Pipeline.arrRef spec2 5) : S256x256.Idx → EReal) _ = (V c (Pipeline.arrRef spec2 5) : S256x256.Idx → EReal) _
  refine congrArg (V c (Pipeline.arrRef spec2 5) : S256x256.Idx → EReal) (funext fun a => Fin.ext ?_)
  match a with
  | ⟨0, _⟩ => show win2_5.index t (0 : Fin 2) * 256 + 1 * k.val = k.val; omega
  | ⟨1, _⟩ => show win2_5.index t (1 : Fin 2) * 256 + 1 * q.val = q.val; omega

theorem blkPoint2 (c : Dev nD) (t : Fin cfg2.N) (p : Fin 2000) (q : Fin 256) :
    k2_pay1 (F := Ideal) (iblk2 V c 0 t) (iblk2 V c 1 t) (iblk2 V c 2 t) (iblk2 V c 3 t) (iblk2 V c 5 t) (iblk2 V c 4 t) (ix2 p q)
      = (Cert.Spec.layK (C := 256) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) (((cfg2.win 6).blk t).view.emb (ix2 p q)) := by
  obtain ⟨hN, -, -, -, -, -, -, -, -, -, -, -, o0, o1⟩ := idx_facts2 t
  have hlt : t.val * 2000 + p.val < 50000 := by have := p.isLt; omega
  have he : ((cfg2.win 6).blk t).view.emb (ix2 p q) = (ix2 (⟨t.val * 2000 + p.val, hlt⟩ : Fin 50000) q : S50000x256.Idx) :=
    funext fun a => Fin.ext (by
      match a with
      | ⟨0, _⟩ => show win2_6.index t (0 : Fin 2) * 2000 + 1 * p.val = t.val * 2000 + p.val; omega
      | ⟨1, _⟩ => show win2_6.index t (1 : Fin 2) * 256 + 1 * q.val = q.val; omega)
  refine (Val1.payRows1 _ _ _ _ _ _ _ _ _ _ _ _ t.val (fun p k r hr => iblk2_0_apply V c t p k r hr)
    (fun p k r hr => iblk2_1_apply V c t p k r hr) (fun p k r hr => iblk2_2_apply V c t p k r hr)
    (fun k q => iblk2_3_apply V c t k q) (fun q => iblk2_4_apply V c t q) (fun k q => iblk2_5_apply V c t k q) p q ⟨_, hlt⟩ rfl).trans ?_
  exact congrArg (Cert.Spec.layK (C := 256) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) he.symm

theorem blkIdx2 (c : Dev nD) (t : Fin cfg2.N) (j : S2000x256.Idx) :
    k2_pay1 (F := Ideal) (iblk2 V c 0 t) (iblk2 V c 1 t) (iblk2 V c 2 t) (iblk2 V c 3 t) (iblk2 V c 5 t) (iblk2 V c 4 t) j
      = (Cert.Spec.layK (C := 256) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) (((cfg2.win 6).blk t).view.emb j) := by
  obtain ⟨p, q, rfl⟩ : ∃ (p : Fin 2000) (q : Fin 256), j = ix2 p q := ⟨j 0, j 1, eq_ix2 j⟩
  exact blkPoint2 V c t p q

theorem out2_eq (x0 : Vec Ideal S2000x256 .f32) (x1 : Vec Ideal S2000x1 .f32) (x2 : Vec Ideal S2000x256 .bf16)
    (x3 : Vec Ideal S256x256 .f32) (x4 : Vec Ideal S256 .f32) (x5 : Vec Ideal S256x256 .f32) :
    out2_6 (F := Ideal) x0 x1 x2 x3 x4 x5 = k2_pay1 (F := Ideal) x0 x1 x2 x3 x5 x4 := by
  unfold out2_6
  rw [View.canon_unit_zero hzPair]
  simp only [View.ld_unit_zero (S := S2000x256) hzPair, View.ld_unit_zero (S := S2000x1) hzPair,
    View.ld_unit_zero (S := S256x256) hzPair, View.ld_unit_zero (S := S256) hzSingle]

theorem flushed2_eq (c : Dev nD) (t : Fin cfg2.N) :
    (dat2 (F := Ideal) V c).flushed 6 t = ((cfg2.win 6).blk t).view.read (Elt Ideal)
      (Cert.Spec.layK (C := 256) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6, out2_eq]
  exact funext (blkIdx2 V c t)

theorem mem_blk2 (t : Fin cfg2.N) (i : S50000x256.Idx) :
    i ∈ ((cfg2.win 6).blk t).view.set ↔ ∀ a : Fin 2, win2_6.index t a * S2000x256.size a ≤ (i a).val
      ∧ (i a).val < win2_6.index t a * S2000x256.size a + S2000x256.size a := by
  show i ∈ ((View.whole (Pipeline.arrRef spec2 6)).slice (win2_6.rect t)).set ↔ _
  rw [View.set_slice_whole, Rect.mem_set_unit]
  exact Iff.rfl

theorem cover2 (i : S50000x256.Idx) : ∃ t : Fin cfg2.N, (cfg2.win 6).flush t = true ∧ i ∈ ((cfg2.win 6).blk t).view.set := by
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, by show (i 0).val / 2000 < 25; omega⟩, rfl⟩
  obtain ⟨hN, -, -, -, -, -, -, -, -, -, -, -, o0, o1⟩ := idx_facts2 t
  refine ⟨t, flush2_6 t, ?_⟩
  rw [mem_blk2]
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 256 ≤ (i 1).val ∧ (i 1).val < win2_6.index t (1 : Fin 2) * 256 + 256
    omega

end Blocks

end Val2

open Cert.KernelIdeal Cert.KernelIdeal.Gen Idealize.ShloMosaic Idealize.ShloMosaic.TcCoe Idealize.SL.Sem in

theorem arrAt2 (V : (c : Dev nD) → (b : Ref sig .tc) → Buf (Elt Ideal) ((c : Thread nD τ).loc b)) (c : Dev nD) :
    (dat2 (F := Ideal) V c).arrAt 6 cfg2.N = Cert.Spec.layK (C := 256) (V c (Pipeline.arrRef spec2 0)) (V c (Pipeline.arrRef spec2 1))
      (V c (Pipeline.arrRef spec2 2)) (V c (Pipeline.arrRef spec2 3)) (V c (Pipeline.arrRef spec2 4)) (V c (Pipeline.arrRef spec2 5)) :=
  (dat2 (F := Ideal) V c).arrAt_eq_of_cover 6 _ (fun t _ => Val2.flushed2_eq V c t) (fun i => Val2.cover2 i)

end Cert.KernelIdeal.Fr
-- ==== Proof.ValR3.lean ====
import proofs.«420935_j80238579024178_3_alg».proof.Proof.FrR3
import proofs.«420935_j80238579024178_3_alg».proof.Proof.ValR1
import proofs.«420935_j80238579024178_3_alg».proof.Proof.Spec
import proofs.«420935_j80238579024178_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

namespace Val3

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Blocks
variable (V : (c : Dev nD) → (b : Ref sig .tc) → Buf (Elt Ideal) ((c : Thread nD τ).loc b))

theorem hzPair : (![0, 0] : Fin 2 → Nat) = fun _ => 0 := funext fun a => by fin_cases a <;> rfl
theorem hzSingle : (![0] : Fin 1 → Nat) = fun _ => 0 := funext fun a => by fin_cases a <;> rfl

theorem idx_facts3 : ∀ t : Fin cfg3.N, t.val < 25
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem iblk3_0_apply (c : Dev nD) (t : Fin cfg3.N) (p : Fin 2000) (k : Fin 256) (r : Fin 50000) (hr : r.val = t.val * 2000 + p.val) :
    (iblk3 V c 0 t : Vec Ideal S2000x256 .f32) (ix2 p k) = (V c (Pipeline.arrRef spec3 0) : S50000x256.Idx → EReal) (ix2 r k) := by
  obtain ⟨-, e0, e1, -⟩ := idx_facts3 t
  unfold iblk3
  rw [View.read_apply]
  show (V c (Pipeline.arrRef spec3 0) : S50000x256.Idx → EReal) _ = (V c (Pipeline.arrRef spec3 0) : S50000x256.Idx → EReal) _
  refine congrArg (V c (Pipeline.arrRef spec3 0) : S50000x256.Idx → EReal) (funext fun a => Fin.ext ?_)
  match a with
  | ⟨0, _⟩ => show win3_0.index t (0 : Fin 2) * 2000 + 1 * p.val = r.val; omega
  | ⟨1, _⟩ => show win3_0.index t (1 : Fin 2) * 256 + 1 * k.val = k.val; omega

theorem iblk3_1_apply (c : Dev nD) (t : Fin cfg3.N) (p : Fin 2000) (k : Fin 1) (r : Fin 50000) (hr : r.val = t.val * 2000 + p.val) :
    (iblk3 V c 1 t : Vec Ideal S2000x1 .f32) (ix2 p k) = (V c (Pipeline.arrRef spec3 1) : S50000x1.Idx → EReal) (ix2 r k) := by
  obtain ⟨-, -, -, e0, e1, -⟩ := idx_facts3 t
  unfold iblk3
  rw [View.read_apply]
  show (V c (Pipeline.arrRef spec3 1) : S50000x1.Idx → EReal) _ = (V c (Pipeline.arrRef spec3 1) : S50000x1.Idx → EReal) _
  refine congrArg (V c (Pipeline.arrRef spec3 1) : S50000x1.Idx → EReal) (funext fun a => Fin.ext ?_)
  match a with
  | ⟨0, _⟩ => show win3_1.index t (0 : Fin 2) * 2000 + 1 * p.val = r.val; omega
  | ⟨1, _⟩ => show win3_1.index t (1 : Fin 2) * 1 + 1 * k.val = k.val; omega

theorem iblk3_2_apply (c : Dev nD) (t : Fin cfg3.N) (p : Fin 2000) (k : Fin 256) (r : Fin 50000) (hr : r.val = t.val * 2000 + p.val) :
    (iblk3 V c 2 t : Vec Ideal S2000x256 .bf16) (ix2 p k) = (V c (Pipeline.arrRef spec3 2) : S50000x256.Idx → EReal) (ix2 r k) := by
  obtain ⟨-, -, -, -, -, e0, e1, -⟩ := idx_facts3 t
  unfold iblk3
  rw [View.read_apply]
  show (V c (Pipeline.arrRef spec3 2) : S50000x256.Idx → EReal) _ = (V c (Pipeline.arrRef spec3 2) : S50000x256.Idx → EReal) _
  refine congrArg (V c (Pipeline.arrRef spec3 2) : S50000x256.Idx → EReal) (funext fun a => Fin.ext ?_)
  match a with
  | ⟨0, _⟩ => show win3_2.index t (0 : Fin 2) * 2000 + 1 * p.val = r.val; omega
  | ⟨1, _⟩ => show win3_2.index t (1 : Fin 2) * 256 + 1 * k.val = k.val; omega

theorem iblk3_3_apply (c : Dev nD) (t : Fin cfg3.N) (k q : Fin 256) :
    (iblk3 V c 3 t : Vec Ideal S256x256 .f32) (ix2 k q) = (V c (Pipeline.arrRef spec3 3) : S256x256.Idx → EReal) (ix2 k q) := by
  obtain ⟨-, -, -, -, -, -, -, e0, e1, -⟩ := idx_facts3 t
  unfold iblk3
  rw [View.read_apply]
  show (V c (Pipeline.arrRef spec3 3) : S256x256.Idx → EReal) _ = (V c (Pipeline.arrRef spec3 3) : S256x256.Idx → EReal) _
  refine congrArg (V c (Pipeline.arrRef spec3 3) : S256x256.Idx → EReal) (funext fun a => Fin.ext ?_)
  match a with
  | ⟨0, _⟩ => show win3_3.index t (0 : Fin 2) * 256 + 1 * k.val = k.val; omega
  | ⟨1, _⟩ => show win3_3.index t (1 : Fin 2) * 256 + 1 * q.val = q.val; omega

theorem iblk3_4_apply (c : Dev nD) (t : Fin cfg3.N) (q : Fin 256) :
    (iblk3 V c 4 t : Vec Ideal S256 .f32) (ix1 q) = (V c (Pipeline.arrRef spec3 4) : S256.Idx → EReal) (ix1 q) := by
  obtain ⟨-, -, -, -, -, -, -, -, -, e0, -⟩ := idx_facts3 t
  unfold iblk3
  rw [View.read_apply]
  show (V c (Pipeline.arrRef spec3 4) : S256.Idx → EReal) _ = (V c (Pipeline.arrRef spec3 4) : S256.Idx → EReal) _
  refine congrArg (V c (Pipeline.arrRef spec3 4) : S256.Idx → EReal) (funext fun a => Fin.ext ?_)
  match a with
  | ⟨0, _⟩ => show win3_4.index t (0 : Fin 1) * 256 + 1 * q.val = q.val; omega

theorem iblk3_5_apply (c : Dev nD) (t : Fin cfg3.N) (k q : Fin 256) :
    (iblk3 V c 5 t : Vec Ideal S256x256 .f32) (ix2 k q) = (V c (Pipeline.arrRef spec3 5) : S256x256.Idx → EReal) (ix2 k q) := by
  obtain ⟨-, -, -, -, -, -, -, -, -, -, e0, e1, -⟩ := idx_facts3 t
  unfold iblk3
  rw [View.read_apply]
  show (V c (Pipeline.arrRef spec3 5) : S256x256.Idx → EReal) _ = (V c (Pipeline.arrRef spec3 5) : S256x256.Idx → EReal) _
  refine congrArg (V c (Pipeline.arrRef spec3 5) : S256x256.Idx → EReal) (funext fun a => Fin.ext ?_)
  match a with
  | ⟨0, _⟩ => show win3_5.index t (0 : Fin 2) * 256 + 1 * k.val = k.val; omega
  | ⟨1, _⟩ => show win3_5.index t (1 : Fin 2) * 256 + 1 * q.val = q.val; omega

theorem blkPoint3 (c : Dev nD) (t : Fin cfg3.N) (p : Fin 2000) (q : Fin 256) :
    k3_pay1 (F := Ideal) (iblk3 V c 0 t) (iblk3 V c 1 t) (iblk3 V c 2 t) (iblk3 V c 3 t) (iblk3 V c 5 t) (iblk3 V c 4 t) (ix2 p q)
      = (Cert.Spec.layK (C := 256) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) (((cfg3.win 6).blk t).view.emb (ix2 p q)) := by
  obtain ⟨hN, -, -, -, -, -, -, -, -, -, -, -, o0, o1⟩ := idx_facts3 t
  have hlt : t.val * 2000 + p.val < 50000 := by have := p.isLt; omega
  have he : ((cfg3.win 6).blk t).view.emb (ix2 p q) = (ix2 (⟨t.val * 2000 + p.val, hlt⟩ : Fin 50000) q : S50000x256.Idx) :=
    funext fun a => Fin.ext (by
      match a with
      | ⟨0, _⟩ => show win3_6.index t (0 : Fin 2) * 2000 + 1 * p.val = t.val * 2000 + p.val; omega
      | ⟨1, _⟩ => show win3_6.index t (1 : Fin 2) * 256 + 1 * q.val = q.val; omega)
  refine (Val1.payRows1 _ _ _ _ _ _ _ _ _ _ _ _ t.val (fun p k r hr => iblk3_0_apply V c t p k r hr)
    (fun p k r hr => iblk3_1_apply V c t p k r hr) (fun p k r hr => iblk3_2_apply V c t p k r hr)
    (fun k q => iblk3_3_apply V c t k q) (fun q => iblk3_4_apply V c t q) (fun k q => iblk3_5_apply V c t k q) p q ⟨_, hlt⟩ rfl).trans ?_
  exact congrArg (Cert.Spec.layK (C := 256) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) he.symm

theorem blkIdx3 (c : Dev nD) (t : Fin cfg3.N) (j : S2000x256.Idx) :
    k3_pay1 (F := Ideal) (iblk3 V c 0 t) (iblk3 V c 1 t) (iblk3 V c 2 t) (iblk3 V c 3 t) (iblk3 V c 5 t) (iblk3 V c 4 t) j
      = (Cert.Spec.layK (C := 256) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) (((cfg3.win 6).blk t).view.emb j) := by
  obtain ⟨p, q, rfl⟩ : ∃ (p : Fin 2000) (q : Fin 256), j = ix2 p q := ⟨j 0, j 1, eq_ix2 j⟩
  exact blkPoint3 V c t p q

theorem out3_eq (x0 : Vec Ideal S2000x256 .f32) (x1 : Vec Ideal S2000x1 .f32) (x2 : Vec Ideal S2000x256 .bf16)
    (x3 : Vec Ideal S256x256 .f32) (x4 : Vec Ideal S256 .f32) (x5 : Vec Ideal S256x256 .f32) :
    out3_6 (F := Ideal) x0 x1 x2 x3 x4 x5 = k3_pay1 (F := Ideal) x0 x1 x2 x3 x5 x4 := by
  unfold out3_6
  rw [View.canon_unit_zero hzPair]
  simp only [View.ld_unit_zero (S := S2000x256) hzPair, View.ld_unit_zero (S := S2000x1) hzPair,
    View.ld_unit_zero (S := S256x256) hzPair, View.ld_unit_zero (S := S256) hzSingle]

theorem flushed3_eq (c : Dev nD) (t : Fin cfg3.N) :
    (dat3 (F := Ideal) V c).flushed 6 t = ((cfg3.win 6).blk t).view.read (Elt Ideal)
      (Cert.Spec.layK (C := 256) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 V c).after 6 t) = _
  rw [after3_6, out3_eq]
  exact funext (blkIdx3 V c t)

theorem mem_blk3 (t : Fin cfg3.N) (i : S50000x256.Idx) :
    i ∈ ((cfg3.win 6).blk t).view.set ↔ ∀ a : Fin 2, win3_6.index t a * S2000x256.size a ≤ (i a).val
      ∧ (i a).val < win3_6.index t a * S2000x256.size a + S2000x256.size a := by
  show i ∈ ((View.whole (Pipeline.arrRef spec3 6)).slice (win3_6.rect t)).set ↔ _
  rw [View.set_slice_whole, Rect.mem_set_unit]
  exact Iff.rfl

theorem cover3 (i : S50000x256.Idx) : ∃ t : Fin cfg3.N, (cfg3.win 6).flush t = true ∧ i ∈ ((cfg3.win 6).blk t).view.set := by
  have hi0 : (i 0).val < 50000 := (i 0).isLt
  have hi1 : (i 1).val < 256 := (i 1).isLt
  obtain ⟨t, ht⟩ : ∃ t : Fin cfg3.N, t.val = (i 0).val / 2000 :=
    ⟨⟨(i 0).val / 2000, by show (i 0).val / 2000 < 25; omega⟩, rfl⟩
  obtain ⟨hN, -, -, -, -, -, -, -, -, -, -, -, o0, o1⟩ := idx_facts3 t
  refine ⟨t, flush3_6 t, ?_⟩
  rw [mem_blk3]
  intro a
  match a with
  | ⟨0, _⟩ =>
    show win3_6.index t (0 : Fin 2) * 2000 ≤ (i 0).val ∧ (i 0).val < win3_6.index t (0 : Fin 2) * 2000 + 2000
    omega
  | ⟨1, _⟩ =>
    show win3_6.index t (1 : Fin 2) * 256 ≤ (i 1).val ∧ (i 1).val < win3_6.index t (1 : Fin 2) * 256 + 256
    omega

end Blocks

end Val3

open Cert.KernelIdeal Cert.KernelIdeal.Gen Idealize.ShloMosaic Idealize.ShloMosaic.TcCoe Idealize.SL.Sem in

theorem arrAt3 (V : (c : Dev nD) → (b : Ref sig .tc) → Buf (Elt Ideal) ((c : Thread nD τ).loc b)) (c : Dev nD) :
    (dat3 (F := Ideal) V c).arrAt 6 cfg3.N = Cert.Spec.layK (C := 256) (V c (Pipeline.arrRef spec3 0)) (V c (Pipeline.arrRef spec3 1))
      (V c (Pipeline.arrRef spec3 2)) (V c (Pipeline.arrRef spec3 3)) (V c (Pipeline.arrRef spec3 4)) (V c (Pipeline.arrRef spec3 5)) :=
  (dat3 (F := Ideal) V c).arrAt_eq_of_cover 6 _ (fun t _ => Val3.flushed3_eq V c t) (fun i => Val3.cover3 i)

end Cert.KernelIdeal.Fr
-- ==== Proof.Pieces4.lean ====
import proofs.«420935_j80238579024178_3_alg».proof.Proof.FrR4
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz1 : (![0] : Fin 1 → Nat) = fun _ => 0 := funext fun a => by fin_cases a <;> rfl

section

variable (c : Dev nD) (i : grid4.Coords) (arg1 : Memref sig .tc .vmem S2000x256 .f32) (harg1 : arg1.IsWhole) (arg2 : Memref sig .tc .vmem S2000x1 .f32) (harg2 : arg2.IsWhole) (arg3 : Memref sig .tc .vmem S2000x256 .bf16) (harg3 : arg3.IsWhole) (arg4 : Memref sig .tc .vmem S256x256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S2000x1 .i32) (harg7 : arg7.IsWhole) (arg8 : Memref sig .tc .vmem S256x10 .f32) (harg8 : arg8.IsWhole) (arg9 : Memref sig .tc .vmem S10 .f32) (harg9 : arg9.IsWhole) (arg10 : Memref sig .tc .vmem S128x10 .f32) (harg10 : arg10.IsWhole) (arg11 : Memref sig .tc .vmem S128x256 .f32) (harg11 : arg11.IsWhole) (arg12 : Memref sig .tc .vmem S128x1 .f32) (harg12 : arg12.IsWhole)

section

variable (hc0 : cond4_0 i) (hc1 : ¬cond4_1 i)
    (x0 : Vec F S2000x256 .f32) (x1 : Vec F S2000x1 .f32) (x2 : Vec F S2000x256 .bf16) (x3 : Vec F S256x256 .f32) (x4 : Vec F S256 .f32) (x5 : Vec F S256x256 .f32) (x6 : Vec F S2000x1 .i32) (x7 : Vec F S256x10 .f32) (x8 : Vec F S10 .f32)

theorem sout4_A_0_eq :
    sout4_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k4_pay1 (k4_pay6 x0 x1 x2 x3 x5 x4) (k4_pay7 x6) (k4_pay4 (F := F)) := by
  unfold sout4_A_0
  rw [View.read_writes_eq_canon _ _ _ (scover4_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun4_A
  dsimp only
  try sl_unfold_words
  rw [View.canon_cons_unit_zero (S := S128x256) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S2000x256) hz2, View.ld_unit_zero (S := S2000x1) hz2, View.ld_unit_zero (S := S256x256) hz2, View.ld_unit_zero (S := S256) hz1, View.ld_unit_zero (S := S256x10) hz2, View.ld_unit_zero (S := S10) hz1, View.ld_unit_zero (S := S128x256) hz2, View.ld_unit_zero (S := S128x1) hz2, View.ld_unit_zero (S := S128x10) hz2, View.readCov_unit_zero (S := S128x256) _ hz2, View.readCov_unit_zero (S := S128x1) _ hz2]

theorem sout4_A_1_eq :
    sout4_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 = k4_pay2 (k4_pay7 x6) (Scalar.ofBits .bf16 0x3F80#16) (k4_pay5 (F := F)) := by
  unfold sout4_A_1
  rw [View.read_writes_eq_canon _ _ _ (scover4_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun4_A
  dsimp only
  try sl_unfold_words
  rw [View.canon_cons_unit_zero (S := S128x1) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S2000x256) hz2, View.ld_unit_zero (S := S2000x1) hz2, View.ld_unit_zero (S := S256x256) hz2, View.ld_unit_zero (S := S256) hz1, View.ld_unit_zero (S := S256x10) hz2, View.ld_unit_zero (S := S10) hz1, View.ld_unit_zero (S := S128x256) hz2, View.ld_unit_zero (S := S128x1) hz2, View.ld_unit_zero (S := S128x10) hz2, View.readCov_unit_zero (S := S128x256) _ hz2, View.readCov_unit_zero (S := S128x1) _ hz2]

end

section

variable (hc0 : ¬cond4_0 i) (hc1 : ¬cond4_1 i)
    (x0 : Vec F S2000x256 .f32) (x1 : Vec F S2000x1 .f32) (x2 : Vec F S2000x256 .bf16) (x3 : Vec F S256x256 .f32) (x4 : Vec F S256 .f32) (x5 : Vec F S256x256 .f32) (x6 : Vec F S2000x1 .i32) (x7 : Vec F S256x10 .f32) (x8 : Vec F S10 .f32)

theorem sout4_B_0_eq (xs0 : Vec F S128x256 .f32) (xs1 : Vec F S128x1 .f32) :
    sout4_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1 = k4_pay1 (k4_pay6 x0 x1 x2 x3 x5 x4) (k4_pay7 x6) xs0 := by
  unfold sout4_B_0
  rw [View.read_writes_eq_canon _ _ _ (scover4_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1)]
  unfold kernelRun4_B
  dsimp only
  try sl_unfold_words
  rw [View.canon_cons_unit_zero (S := S128x256) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S2000x256) hz2, View.ld_unit_zero (S := S2000x1) hz2, View.ld_unit_zero (S := S256x256) hz2, View.ld_unit_zero (S := S256) hz1, View.ld_unit_zero (S := S256x10) hz2, View.ld_unit_zero (S := S10) hz1, View.ld_unit_zero (S := S128x256) hz2, View.ld_unit_zero (S := S128x1) hz2, View.ld_unit_zero (S := S128x10) hz2, View.readCov_unit_zero (S := S128x256) _ hz2, View.readCov_unit_zero (S := S128x1) _ hz2]

theorem sout4_B_1_eq (xs0 : Vec F S128x256 .f32) (xs1 : Vec F S128x1 .f32) :
    sout4_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1 = k4_pay2 (k4_pay7 x6) (Scalar.ofBits .bf16 0x3F80#16) xs1 := by
  unfold sout4_B_1
  rw [View.read_writes_eq_canon _ _ _ (scover4_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1)]
  unfold kernelRun4_B
  dsimp only
  try sl_unfold_words
  rw [View.canon_cons_unit_zero (S := S128x1) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S2000x256) hz2, View.ld_unit_zero (S := S2000x1) hz2, View.ld_unit_zero (S := S256x256) hz2, View.ld_unit_zero (S := S256) hz1, View.ld_unit_zero (S := S256x10) hz2, View.ld_unit_zero (S := S10) hz1, View.ld_unit_zero (S := S128x256) hz2, View.ld_unit_zero (S := S128x1) hz2, View.ld_unit_zero (S := S128x10) hz2, View.readCov_unit_zero (S := S128x256) _ hz2, View.readCov_unit_zero (S := S128x1) _ hz2]

end

section

variable (hc0 : ¬cond4_0 i) (hc1 : cond4_1 i)
    (x0 : Vec F S2000x256 .f32) (x1 : Vec F S2000x1 .f32) (x2 : Vec F S2000x256 .bf16) (x3 : Vec F S256x256 .f32) (x4 : Vec F S256 .f32) (x5 : Vec F S256x256 .f32) (x6 : Vec F S2000x1 .i32) (x7 : Vec F S256x10 .f32) (x8 : Vec F S10 .f32)

theorem sout4_C_0_eq (xs0 : Vec F S128x256 .f32) (xs1 : Vec F S128x1 .f32) :
    sout4_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1 = k4_pay1 (k4_pay6 x0 x1 x2 x3 x5 x4) (k4_pay7 x6) xs0 := by
  unfold sout4_C_0
  rw [View.read_writes_eq_canon _ _ _ (scover4_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1)]
  unfold kernelRun4_C
  dsimp only
  try sl_unfold_words
  rw [View.canon_cons_unit_zero (S := S128x256) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S2000x256) hz2, View.ld_unit_zero (S := S2000x1) hz2, View.ld_unit_zero (S := S256x256) hz2, View.ld_unit_zero (S := S256) hz1, View.ld_unit_zero (S := S256x10) hz2, View.ld_unit_zero (S := S10) hz1, View.ld_unit_zero (S := S128x256) hz2, View.ld_unit_zero (S := S128x1) hz2, View.ld_unit_zero (S := S128x10) hz2, View.readCov_unit_zero (S := S128x256) _ hz2, View.readCov_unit_zero (S := S128x1) _ hz2]

theorem sout4_C_1_eq (xs0 : Vec F S128x256 .f32) (xs1 : Vec F S128x1 .f32) :
    sout4_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1 = k4_pay2 (k4_pay7 x6) (Scalar.ofBits .bf16 0x3F80#16) xs1 := by
  unfold sout4_C_1
  rw [View.read_writes_eq_canon _ _ _ (scover4_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1)]
  unfold kernelRun4_C
  dsimp only
  try sl_unfold_words
  rw [View.canon_cons_unit_zero (S := S128x1) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S2000x256) hz2, View.ld_unit_zero (S := S2000x1) hz2, View.ld_unit_zero (S := S256x256) hz2, View.ld_unit_zero (S := S256) hz1, View.ld_unit_zero (S := S256x10) hz2, View.ld_unit_zero (S := S10) hz1, View.ld_unit_zero (S := S128x256) hz2, View.ld_unit_zero (S := S128x1) hz2, View.ld_unit_zero (S := S128x10) hz2, View.readCov_unit_zero (S := S128x256) _ hz2, View.readCov_unit_zero (S := S128x1) _ hz2]

theorem out4_C_9_eq (xs0 : Vec F S128x256 .f32) (xs1 : Vec F S128x1 .f32) :
    out4_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1 = k4_pay3 (k4_pay2 (k4_pay7 x6) (Scalar.ofBits .bf16 0x3F80#16) xs1) (k4_pay1 (k4_pay6 x0 x1 x2 x3 x5 x4) (k4_pay7 x6) xs0) x7 x8 := by
  unfold out4_C_9
  rw [View.read_writes_eq_canon _ _ _ (cover4_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 xs1)]
  unfold kernelRun4_C
  dsimp only
  try sl_unfold_words
  rw [View.canon_cons_unit_zero (S := S128x10) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S2000x256) hz2, View.ld_unit_zero (S := S2000x1) hz2, View.ld_unit_zero (S := S256x256) hz2, View.ld_unit_zero (S := S256) hz1, View.ld_unit_zero (S := S256x10) hz2, View.ld_unit_zero (S := S10) hz1, View.ld_unit_zero (S := S128x256) hz2, View.ld_unit_zero (S := S128x1) hz2, View.ld_unit_zero (S := S128x10) hz2, View.readCov_unit_zero (S := S128x256) _ hz2, View.readCov_unit_zero (S := S128x1) _ hz2]

end

end

end Cert.KernelIdeal.Fr

end
-- ==== Proof.Pay4.lean ====
import proofs.«420935_j80238579024178_3_alg».proof.Proof.Gen.KernelIdeal.Skeleton
import proofs.«420935_j80238579024178_3_alg».proof.Proof.Spec
import proofs.«420935_j80238579024178_3_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

open scoped BigOperators

namespace Cert.KernelIdeal.Fr

open Cert.KernelIdeal Cert.KernelIdeal.Gen
open Idealize.ShloMosaic Idealize.ShloMosaic.ValueIdx

theorem mmLayer_lhs_0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem mmLayer_lhs_1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem mmLayer_rhs_0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem mmLayer_rhs_1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem mmLayer_apply {φ₁ φ₂ : FTy} (lhs : FVec Ideal S2000x256 φ₁) (rhs : FVec Ideal S256x256 φ₂) (p : Fin 2000) (q : Fin 256) :
    matmul dot_S2000x256_S256x256_S2000x256_1_0_0_1_n_n none lhs rhs (constant (F := Ideal) S2000x256 .f32 0x00000000#32) (ix2 p q)
      = ∑ k : Fin 256, lhs (ix2 p k) * rhs (ix2 k q) := by
  refine (Ideal.matmul_constant_zero_apply dot_S2000x256_S256x256_S2000x256_1_0_0_1_n_n none lhs rhs (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact mmLayer_lhs_0 _ _
    | ⟨1, _⟩ => exact (mmLayer_lhs_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (mmLayer_rhs_0 _ _).trans hk
    | ⟨1, _⟩ => exact mmLayer_rhs_1 _ _)
  rw [el, er]

theorem mmPool_lhs_0 (i : S128x256.Idx) (q : dot_S2000x128_S2000x256_S128x256_0_0_1_1_n_n.contr.Idx) : (dot_S2000x128_S2000x256_S128x256_0_0_1_1_n_n.lhsIdx i q 0).val = (q ⟨0, by decide⟩).val :=
  dot_S2000x128_S2000x256_S128x256_0_0_1_1_n_n.lhsIdx_val_of_single rfl i q
theorem mmPool_lhs_1 (i : S128x256.Idx) (q : dot_S2000x128_S2000x256_S128x256_0_0_1_1_n_n.contr.Idx) : (dot_S2000x128_S2000x256_S128x256_0_0_1_1_n_n.lhsIdx i q 1).val = (i 0).val := by
  unfold DotDims.lhsIdx
  rw [dif_neg (show ¬(1 : Fin S2000x128.rank) ∈ dot_S2000x128_S2000x256_S128x256_0_0_1_1_n_n.lhsBatch by decide), dif_pos (show (1 : Fin S2000x128.rank) ∈ dot_S2000x128_S2000x256_S128x256_0_0_1_1_n_n.lhsNonContracting by decide)]
  rfl
theorem mmPool_rhs_0 (i : S128x256.Idx) (q : dot_S2000x128_S2000x256_S128x256_0_0_1_1_n_n.contr.Idx) : (dot_S2000x128_S2000x256_S128x256_0_0_1_1_n_n.rhsIdx i q 0).val = (q ⟨0, by decide⟩).val :=
  dot_S2000x128_S2000x256_S128x256_0_0_1_1_n_n.rhsIdx_val_of_single rfl i q
theorem mmPool_rhs_1 (i : S128x256.Idx) (q : dot_S2000x128_S2000x256_S128x256_0_0_1_1_n_n.contr.Idx) : (dot_S2000x128_S2000x256_S128x256_0_0_1_1_n_n.rhsIdx i q 1).val = (i 1).val := by
  unfold DotDims.rhsIdx
  rw [dif_neg (show ¬(1 : Fin S2000x256.rank) ∈ dot_S2000x128_S2000x256_S128x256_0_0_1_1_n_n.rhsBatch by decide), dif_pos (show (1 : Fin S2000x256.rank) ∈ dot_S2000x128_S2000x256_S128x256_0_0_1_1_n_n.rhsNonContracting by decide)]
  rfl

theorem mmPool_apply {φ₁ φ₂ : FTy} (lhs : FVec Ideal S2000x128 φ₁) (rhs : FVec Ideal S2000x256 φ₂) (p : Fin 128) (q : Fin 256) :
    matmul dot_S2000x128_S2000x256_S128x256_0_0_1_1_n_n none lhs rhs (constant (F := Ideal) S128x256 .f32 0x00000000#32) (ix2 p q)
      = ∑ k : Fin 2000, lhs (ix2 k p) * rhs (ix2 k q) := by
  refine (Ideal.matmul_constant_zero_apply dot_S2000x128_S2000x256_S128x256_0_0_1_1_n_n none lhs rhs (ix2 p q)).trans ?_
  rw [← Equiv.sum_comp (contrEquiv1 dot_S2000x128_S2000x256_S128x256_0_0_1_1_n_n 2000 rfl rfl).symm]
  refine Finset.sum_congr rfl fun k _ => ?_
  have hk := contrEquiv1_symm_val dot_S2000x128_S2000x256_S128x256_0_0_1_1_n_n 2000 rfl rfl k
  have el : dot_S2000x128_S2000x256_S128x256_0_0_1_1_n_n.lhsIdx (ix2 p q) ((contrEquiv1 dot_S2000x128_S2000x256_S128x256_0_0_1_1_n_n 2000 rfl rfl).symm k) = ix2 k p := funext fun a => Fin.ext (by
    match a with
    | ⟨0, _⟩ => exact (mmPool_lhs_0 _ _).trans hk
    | ⟨1, _⟩ => exact mmPool_lhs_1 _ _)
  have er : dot_S2000x128_S2000x256_S128x256_0_0_1_1_n_n.rhsIdx (ix2 p q) ((contrEquiv1 dot_S2000x128_S2000x256_S128x256_0_0_1_1_n_n 2000 rfl rfl).symm k) = ix2 k q := funext fun a => Fin.ext (by
    match a with
    | ⟨0, _⟩ => exact (mmPool_rhs_0 _ _).trans hk
    | ⟨1, _⟩ => exact mmPool_rhs_1 _ _)
  rw [el, er]

theorem mmCount_lhs_0 (i : S128x1.Idx) (q : dot_S2000x128_S2000x1_S128x1_0_0_1_1_n_n.contr.Idx) : (dot_S2000x128_S2000x1_S128x1_0_0_1_1_n_n.lhsIdx i q 0).val = (q ⟨0, by decide⟩).val :=
  dot_S2000x128_S2000x1_S128x1_0_0_1_1_n_n.lhsIdx_val_of_single rfl i q
theorem mmCount_lhs_1 (i : S128x1.Idx) (q : dot_S2000x128_S2000x1_S128x1_0_0_1_1_n_n.contr.Idx) : (dot_S2000x128_S2000x1_S128x1_0_0_1_1_n_n.lhsIdx i q 1).val = (i 0).val := by
  unfold DotDims.lhsIdx
  rw [dif_neg (show ¬(1 : Fin S2000x128.rank) ∈ dot_S2000x128_S2000x1_S128x1_0_0_1_1_n_n.lhsBatch by decide), dif_pos (show (1 : Fin S2000x128.rank) ∈ dot_S2000x128_S2000x1_S128x1_0_0_1_1_n_n.lhsNonContracting by decide)]
  rfl
theorem mmCount_rhs_0 (i : S128x1.Idx) (q : dot_S2000x128_S2000x1_S128x1_0_0_1_1_n_n.contr.Idx) : (dot_S2000x128_S2000x1_S128x1_0_0_1_1_n_n.rhsIdx i q 0).val = (q ⟨0, by decide⟩).val :=
  dot_S2000x128_S2000x1_S128x1_0_0_1_1_n_n.rhsIdx_val_of_single rfl i q
theorem mmCount_rhs_1 (i : S128x1.Idx) (q : dot_S2000x128_S2000x1_S128x1_0_0_1_1_n_n.contr.Idx) : (dot_S2000x128_S2000x1_S128x1_0_0_1_1_n_n.rhsIdx i q 1).val = (i 1).val := by
  unfold DotDims.rhsIdx
  rw [dif_neg (show ¬(1 : Fin S2000x1.rank) ∈ dot_S2000x128_S2000x1_S128x1_0_0_1_1_n_n.rhsBatch by decide), dif_pos (show (1 : Fin S2000x1.rank) ∈ dot_S2000x128_S2000x1_S128x1_0_0_1_1_n_n.rhsNonContracting by decide)]
  rfl

theorem mmCount_apply {φ₁ φ₂ : FTy} (lhs : FVec Ideal S2000x128 φ₁) (rhs : FVec Ideal S2000x1 φ₂) (p : Fin 128) (q : Fin 1) :
    matmul dot_S2000x128_S2000x1_S128x1_0_0_1_1_n_n none lhs rhs (constant (F := Ideal) S128x1 .f32 0x00000000#32) (ix2 p q)
      = ∑ k : Fin 2000, lhs (ix2 k p) * rhs (ix2 k q) := by
  refine (Ideal.matmul_constant_zero_apply dot_S2000x128_S2000x1_S128x1_0_0_1_1_n_n none lhs rhs (ix2 p q)).trans ?_
  rw [← Equiv.sum_comp (contrEquiv1 dot_S2000x128_S2000x1_S128x1_0_0_1_1_n_n 2000 rfl rfl).symm]
  refine Finset.sum_congr rfl fun k _ => ?_
  have hk := contrEquiv1_symm_val dot_S2000x128_S2000x1_S128x1_0_0_1_1_n_n 2000 rfl rfl k
  have el : dot_S2000x128_S2000x1_S128x1_0_0_1_1_n_n.lhsIdx (ix2 p q) ((contrEquiv1 dot_S2000x128_S2000x1_S128x1_0_0_1_1_n_n 2000 rfl rfl).symm k) = ix2 k p := funext fun a => Fin.ext (by
    match a with
    | ⟨0, _⟩ => exact (mmCount_lhs_0 _ _).trans hk
    | ⟨1, _⟩ => exact mmCount_lhs_1 _ _)
  have er : dot_S2000x128_S2000x1_S128x1_0_0_1_1_n_n.rhsIdx (ix2 p q) ((contrEquiv1 dot_S2000x128_S2000x1_S128x1_0_0_1_1_n_n 2000 rfl rfl).symm k) = ix2 k q := funext fun a => Fin.ext (by
    match a with
    | ⟨0, _⟩ => exact (mmCount_rhs_0 _ _).trans hk
    | ⟨1, _⟩ => exact mmCount_rhs_1 _ _)
  rw [el, er]

theorem mmHead_lhs_0 (i : S128x10.Idx) (q : dot_S128x256_S256x10_S128x10_1_0_0_1_n_n.contr.Idx) : (dot_S128x256_S256x10_S128x10_1_0_0_1_n_n.lhsIdx i q 0).val = (i 0).val := by
  unfold DotDims.lhsIdx
  rw [dif_neg (show ¬(0 : Fin S128x256.rank) ∈ dot_S128x256_S256x10_S128x10_1_0_0_1_n_n.lhsBatch by decide), dif_pos (show (0 : Fin S128x256.rank) ∈ dot_S128x256_S256x10_S128x10_1_0_0_1_n_n.lhsNonContracting by decide)]
  rfl
theorem mmHead_lhs_1 (i : S128x10.Idx) (q : dot_S128x256_S256x10_S128x10_1_0_0_1_n_n.contr.Idx) : (dot_S128x256_S256x10_S128x10_1_0_0_1_n_n.lhsIdx i q 1).val = (q ⟨0, by decide⟩).val :=
  dot_S128x256_S256x10_S128x10_1_0_0_1_n_n.lhsIdx_val_of_single rfl i q
theorem mmHead_rhs_0 (i : S128x10.Idx) (q : dot_S128x256_S256x10_S128x10_1_0_0_1_n_n.contr.Idx) : (dot_S128x256_S256x10_S128x10_1_0_0_1_n_n.rhsIdx i q 0).val = (q ⟨0, by decide⟩).val :=
  dot_S128x256_S256x10_S128x10_1_0_0_1_n_n.rhsIdx_val_of_single rfl i q
theorem mmHead_rhs_1 (i : S128x10.Idx) (q : dot_S128x256_S256x10_S128x10_1_0_0_1_n_n.contr.Idx) : (dot_S128x256_S256x10_S128x10_1_0_0_1_n_n.rhsIdx i q 1).val = (i 1).val := by
  unfold DotDims.rhsIdx
  rw [dif_neg (show ¬(1 : Fin S256x10.rank) ∈ dot_S128x256_S256x10_S128x10_1_0_0_1_n_n.rhsBatch by decide), dif_pos (show (1 : Fin S256x10.rank) ∈ dot_S128x256_S256x10_S128x10_1_0_0_1_n_n.rhsNonContracting by decide)]
  rfl

theorem mmHead_apply {φ₁ φ₂ : FTy} (lhs : FVec Ideal S128x256 φ₁) (rhs : FVec Ideal S256x10 φ₂) (p : Fin 128) (q : Fin 10) :
    matmul dot_S128x256_S256x10_S128x10_1_0_0_1_n_n none lhs rhs (constant (F := Ideal) S128x10 .f32 0x00000000#32) (ix2 p q)
      = ∑ k : Fin 256, lhs (ix2 p k) * rhs (ix2 k q) := by
  refine (Ideal.matmul_constant_zero_apply dot_S128x256_S256x10_S128x10_1_0_0_1_n_n none lhs rhs (ix2 p q)).trans ?_
  rw [← Equiv.sum_comp (contrEquiv1 dot_S128x256_S256x10_S128x10_1_0_0_1_n_n 256 rfl rfl).symm]
  refine Finset.sum_congr rfl fun k _ => ?_
  have hk := contrEquiv1_symm_val dot_S128x256_S256x10_S128x10_1_0_0_1_n_n 256 rfl rfl k
  have el : dot_S128x256_S256x10_S128x10_1_0_0_1_n_n.lhsIdx (ix2 p q) ((contrEquiv1 dot_S128x256_S256x10_S128x10_1_0_0_1_n_n 256 rfl rfl).symm k) = ix2 p k := funext fun a => Fin.ext (by
    match a with
    | ⟨0, _⟩ => exact mmHead_lhs_0 _ _
    | ⟨1, _⟩ => exact (mmHead_lhs_1 _ _).trans hk)
  have er : dot_S128x256_S256x10_S128x10_1_0_0_1_n_n.rhsIdx (ix2 p q) ((contrEquiv1 dot_S128x256_S256x10_S128x10_1_0_0_1_n_n 256 rfl rfl).symm k) = ix2 k q := funext fun a => Fin.ext (by
    match a with
    | ⟨0, _⟩ => exact (mmHead_rhs_0 _ _).trans hk
    | ⟨1, _⟩ => exact mmHead_rhs_1 _ _)
  rw [el, er]

theorem scalar_ofBits_eq {φ : FTy} (b : BitVec φ.bits) : Scalar.ofBits (F := Ideal) φ b = Ideal.ofBits φ b := rfl

theorem pay6_apply (v3 : Vec Ideal S2000x256 .f32) (v5 : Vec Ideal S2000x1 .f32) (v10 : Vec Ideal S2000x256 .bf16)
    (v12 : Vec Ideal S256x256 .f32) (v15 : Vec Ideal S256x256 .f32) (v21 : Vec Ideal S256 .f32) (p : Fin 2000) (q : Fin 256) :
    k4_pay6 v3 v5 v10 v12 v15 v21 (ix2 p q)
      = max (((∑ k : Fin 256, (v3 (ix2 p k) * v5 (ix2 p (0 : Fin 1))) * v12 (ix2 k q))
          + ∑ k : Fin 256, v10 (ix2 p k) * v15 (ix2 k q)) + v21 (ix1 q)) 0 := by
  unfold k4_pay6
  simp only [shapeCast_self]
  simp only [truncf_apply, maximumf_apply, addf_apply, broadcast_apply, scalar_ofBits_eq, Ideal.ofBits_zero_f32]
  rw [mmLayer_apply, mmLayer_apply]
  simp only [truncf_apply, mulf_apply, Cert.LibColumn.broadcastTo_a1_ab_apply, broadcastTo_1b_ab_apply, shapeCast_a_1a_apply]

theorem pay1_apply (v29 : FVec Ideal S2000x256 .bf16) (v38 : FVec Ideal S2000x128 .bf16) (v42 : Vec Ideal S128x256 .f32)
    (g : Fin 128) (q : Fin 256) :
    k4_pay1 v29 v38 v42 (ix2 g q) = v42 (ix2 g q) + ∑ r : Fin 2000, v38 (ix2 r g) * v29 (ix2 r q) := by
  unfold k4_pay1
  simp only [shapeCast_self]
  simp only [addf_apply]
  rw [mmPool_apply]

theorem pay2_apply (v38 : FVec Ideal S2000x128 .bf16) (v47 : Vec Ideal S128x1 .f32) (g : Fin 128) :
    k4_pay2 v38 (Scalar.ofBits .bf16 0x3F80#16) v47 (ix2 g (0 : Fin 1)) = v47 (ix2 g (0 : Fin 1)) + ∑ r : Fin 2000, v38 (ix2 r g) := by
  unfold k4_pay2
  simp only [shapeCast_self]
  simp only [addf_apply]
  rw [mmCount_apply]
  simp only [broadcast_apply, scalar_ofBits_eq, Ideal.ofBits_one_bf16, mul_one]

theorem pay4_eq : (k4_pay4 (F := Ideal)) = fun _ => (0 : EReal) := by
  unfold k4_pay4
  simp only [shapeCast_self]
  funext i
  simp only [broadcast_apply, scalar_ofBits_eq, Ideal.ofBits_zero_f32]

theorem pay5_eq : (k4_pay5 (F := Ideal)) = fun _ => (0 : EReal) := by
  unfold k4_pay5
  simp only [shapeCast_self]
  funext i
  simp only [broadcast_apply, scalar_ofBits_eq, Ideal.ofBits_zero_f32]

theorem pay7_apply (v31 : Vec Ideal S2000x1 .i32) (p : Fin 2000) (g : Fin 128) :
    k4_pay7 (F := Ideal) v31 (ix2 p g) = if v31 (ix2 p (0 : Fin 1)) = BitVec.ofNat 32 g.val then (1 : EReal) else 0 := by
  unfold k4_pay7
  simp only [shapeCast_self]
  simp only [truncf_apply, sitofp_apply, extui_apply]
  show FloatOps.sitofp (F := Ideal) .f32 ((IntOp.cmpi .eq (broadcastTo S2000x128 v31 _ (ix2 p g)) (broadcastTo S2000x128 (iota .tc S1x128 32 [1] _) _ (ix2 p g))).setWidth 32) = _
  rw [Cert.LibColumn.broadcastTo_a1_ab_apply, broadcastTo_1b_ab_apply, iota_single_apply]
  show (((((IntOp.cmpi .eq (v31 (ix2 p (0 : Fin 1))) (BitVec.ofNat 32 g.val)).setWidth 32).toInt : ℝ) : EReal)) = _
  unfold IntOp.cmpi
  by_cases h : v31 (ix2 p (0 : Fin 1)) = BitVec.ofNat 32 g.val
  · rw [if_pos h, h]; simp
  · rw [if_neg h]
    have : (v31 (ix2 p (0 : Fin 1)) == BitVec.ofNat 32 g.val) = false := by simpa using h
    simp [this]

theorem ofBits_neg_inf_f32 : Ideal.ofBits .f32 0xFF800000#32 = ⊥ := by
  simp [Ideal.ofBits, Ideal.ieee]

theorem lsmTail_eq (y : FVec Ideal S128x10 .f32) (hr : S128x10.Reduces [1] S128) (hc : S128.ShapeCasts S128x1)
    (hb : S128x1.Broadcasts S128x10) (hφ : FKind.Formats .f32)
    (hmax : (0xFF800000#32 : BitVec 32) = FKind.maximumf.neutral .f32 hφ)
    (hadd : (0x00000000#32 : BitVec 32) = FKind.add.neutral .f32 hφ) :
    subf y (broadcastTo S128x10
        (addf (shapeCast S128x1 (multiReduction .maximumf [1] S128 y 0xFF800000#32 hr hφ hmax) hc)
          (log (shapeCast S128x1 (multiReduction .add [1] S128
            (exp (subf y (broadcastTo S128x10 (shapeCast S128x1 (multiReduction .maximumf [1] S128 y 0xFF800000#32 hr hφ hmax) hc) hb)))
            0x00000000#32 hr hφ hadd) hc))) hb)
      = Cert.Spec.lsmK y := by
  funext i
  obtain ⟨g, o, rfl⟩ : ∃ (g : Fin 128) (o : Fin 10), i = ix2 g o := ⟨i 0, i 1, eq_ix2 i⟩
  have hM : ∀ u : Fin 1, shapeCast S128x1 (multiReduction .maximumf [1] S128 y 0xFF800000#32 hr hφ hmax) hc (ix2 g u)
      = Cert.Spec.rowMax y g := fun u => by
    rw [Cert.LibColumn.shapeCast_a_a1_apply, Cert.LibColumn.maxAxis1_apply, ofBits_neg_inf_f32]
    rfl
  show y (ix2 g o) - broadcastTo S128x10 _ hb (ix2 g o) = y (ix2 g o) - (Cert.Spec.rowMax y g + Cert.Spec.rowLse y g)
  rw [Cert.LibColumn.broadcastTo_a1_ab_apply]
  show y (ix2 g o) - (shapeCast S128x1 _ hc (ix2 g (0 : Fin 1)) + Ideal.log (shapeCast S128x1 _ hc (ix2 g (0 : Fin 1)))) = _
  rw [hM, Cert.LibColumn.shapeCast_a_a1_apply, Cert.LibColumn.sumAxis1_apply]
  unfold Cert.Spec.rowLse
  congr 3
  refine Finset.sum_congr rfl fun k _ => ?_
  show Ideal.exp (y (ix2 g k) - broadcastTo S128x10 _ hb (ix2 g k)) = _
  rw [Cert.LibColumn.broadcastTo_a1_ab_apply, hM]

theorem logits_eq (v55 : Vec Ideal S128x1 .f32) (v58 : Vec Ideal S128x256 .f32) (v62 : Vec Ideal S256x10 .f32) (v65 : Vec Ideal S10 .f32)
    (hb1 : S128x1.Broadcasts S128x256) (hc : S10.ShapeCasts S1x10) (hb2 : S1x10.Broadcasts S128x10)
    (hlt : FTy.bits .bf16 < FTy.bits .f32) :
    addf (matmul dot_S128x256_S256x10_S128x10_1_0_0_1_n_n none
        (truncf .bf16 (divf v58 (broadcastTo S128x256 (maximumf v55 (broadcast S128x1 (Scalar.ofBits .f32 0x3F800000#32))) hb1)) hlt)
        (truncf .bf16 v62 hlt) (constant (F := Ideal) S128x10 .f32 0x00000000#32))
      (broadcastTo S128x10 (shapeCast S1x10 v65 hc) hb2)
    = Cert.Spec.logitsOf v58 (fun g => v55 (ix2 g (0 : Fin 1))) v62 v65 := by
  funext i
  obtain ⟨g, o, rfl⟩ : ∃ (g : Fin 128) (o : Fin 10), i = ix2 g o := ⟨i 0, i 1, eq_ix2 i⟩
  show matmul dot_S128x256_S256x10_S128x10_1_0_0_1_n_n none _ _ (constant (F := Ideal) S128x10 .f32 0x00000000#32) (ix2 g o)
      + broadcastTo S128x10 (shapeCast S1x10 v65 hc) hb2 (ix2 g o)
    = (∑ c : Fin 256, Ideal.div (v58 (ix2 g c)) (max (v55 (ix2 g (0 : Fin 1))) 1) * v62 (ix2 c o)) + v65 (ix1 o)
  rw [mmHead_apply, broadcastTo_1b_ab_apply, shapeCast_a_1a_apply]
  simp only [truncf_apply, divf_apply, Cert.LibColumn.broadcastTo_a1_ab_apply, maximumf_apply, broadcast_apply,
    scalar_ofBits_eq, Ideal.ofBits_one_f32]

theorem pay3_eq (v55 : Vec Ideal S128x1 .f32) (v58 : Vec Ideal S128x256 .f32) (v62 : Vec Ideal S256x10 .f32) (v65 : Vec Ideal S10 .f32) :
    k4_pay3 v55 v58 v62 v65 = Cert.Spec.lsmK (Cert.Spec.logitsOf v58 (fun g => v55 (ix2 g (0 : Fin 1))) v62 v65) := by
  unfold k4_pay3
  simp only [shapeCast_self]
  exact (lsmTail_eq _ _ _ _ _ _ _).trans (congrArg Cert.Spec.lsmK (logits_eq v55 v58 v62 v65 _ _ _ _))

end Cert.KernelIdeal.Fr

end
-- ==== Proof.ValR4Sum.lean ====
import proofs.«420935_j80238579024178_3_alg».proof.Proof.Spec
import Mathlib.Algebra.BigOperators.Fin

noncomputable section

namespace Cert.PoolSum

open Idealize.ShloMosaic Idealize.ShloMosaic.ValueIdx Cert.Spec

def poolTerm (bb : Fin 50000 → BitVec 32) (H : Arr2 50000 256) (g : Fin 128) (q : Fin 256) (m : ℕ) : EReal :=
  if h : m < 50000 then (if inGraph bb ⟨m, h⟩ g.val then H (ix2 ⟨m, h⟩ q) else 0) else 0

def cntTerm (bb : Fin 50000 → BitVec 32) (g : Fin 128) (m : ℕ) : EReal :=
  if h : m < 50000 then (if inGraph bb ⟨m, h⟩ g.val then 1 else 0) else 0

theorem poolOf_apply (bb : Fin 50000 → BitVec 32) (H : Arr2 50000 256) (g : Fin 128) (q : Fin 256) :
    poolOf bb H (ix2 g q) = ∑ m ∈ Finset.range 50000, poolTerm bb H g q m := by
  rw [Finset.sum_range]
  show (∑ n : Fin 50000, if inGraph bb n g.val then H (ix2 n q) else 0) = _
  refine Finset.sum_congr rfl fun n _ => ?_
  unfold poolTerm
  rw [dif_pos n.isLt]

theorem cntOf_apply (bb : Fin 50000 → BitVec 32) (g : Fin 128) :
    cntOf bb g = ∑ m ∈ Finset.range 50000, cntTerm bb g m := by
  rw [Finset.sum_range]
  show (∑ n : Fin 50000, if inGraph bb n g.val then (1 : EReal) else 0) = _
  refine Finset.sum_congr rfl fun n _ => ?_
  unfold cntTerm
  rw [dif_pos n.isLt]

theorem label_iff (w : BitVec 32) (g : Fin 128) : w = BitVec.ofNat 32 g.val ↔ w.toInt = (g.val : ℤ) := by
  have hg : ∀ g : Fin 128, (BitVec.ofNat 32 g.val).toInt = (g.val : ℤ) := by decide
  rw [← hg g, BitVec.toInt_inj]

theorem pool_tile (bb : Fin 50000 → BitVec 32) (H : Arr2 50000 256) (g : Fin 128) (q : Fin 256) (t : ℕ) (ht : t < 25)
    (oh : Arr2 2000 128) (hh : Arr2 2000 256)
    (hoh : ∀ (r : Fin 2000) (n : Fin 50000), n.val = 2000 * t + r.val →
      oh (ix2 r g) = if bb n = BitVec.ofNat 32 g.val then 1 else 0)
    (hhh : ∀ (r : Fin 2000) (n : Fin 50000), n.val = 2000 * t + r.val → hh (ix2 r q) = H (ix2 n q)) :
    ∑ r : Fin 2000, oh (ix2 r g) * hh (ix2 r q) = ∑ r ∈ Finset.range 2000, poolTerm bb H g q (2000 * t + r) := by
  rw [Finset.sum_range]
  refine Finset.sum_congr rfl fun r _ => ?_
  have hlt : 2000 * t + r.val < 50000 := by have := r.isLt; omega
  rw [hoh r ⟨_, hlt⟩ rfl, hhh r ⟨_, hlt⟩ rfl]
  unfold poolTerm
  rw [dif_pos hlt]
  by_cases hl : bb ⟨2000 * t + r.val, hlt⟩ = BitVec.ofNat 32 g.val
  · have hl' : inGraph bb ⟨2000 * t + r.val, hlt⟩ g.val := (label_iff _ g).1 hl
    rw [if_pos hl, if_pos hl', one_mul]
  · have hl' : ¬inGraph bb ⟨2000 * t + r.val, hlt⟩ g.val := fun h => hl ((label_iff _ g).2 h)
    rw [if_neg hl, if_neg hl', zero_mul]

theorem cnt_tile (bb : Fin 50000 → BitVec 32) (g : Fin 128) (t : ℕ) (ht : t < 25) (oh : Arr2 2000 128)
    (hoh : ∀ (r : Fin 2000) (n : Fin 50000), n.val = 2000 * t + r.val →
      oh (ix2 r g) = if bb n = BitVec.ofNat 32 g.val then 1 else 0) :
    ∑ r : Fin 2000, oh (ix2 r g) = ∑ r ∈ Finset.range 2000, cntTerm bb g (2000 * t + r) := by
  rw [Finset.sum_range]
  refine Finset.sum_congr rfl fun r _ => ?_
  have hlt : 2000 * t + r.val < 50000 := by have := r.isLt; omega
  rw [hoh r ⟨_, hlt⟩ rfl]
  unfold cntTerm
  rw [dif_pos hlt]
  by_cases hl : bb ⟨2000 * t + r.val, hlt⟩ = BitVec.ofNat 32 g.val
  · have hl' : inGraph bb ⟨2000 * t + r.val, hlt⟩ g.val := (label_iff _ g).1 hl
    rw [if_pos hl, if_pos hl']
  · have hl' : ¬inGraph bb ⟨2000 * t + r.val, hlt⟩ g.val := fun h => hl ((label_iff _ g).2 h)
    rw [if_neg hl, if_neg hl']

theorem acc_tile (f : ℕ → EReal) (t : ℕ) (acc s : EReal) (hacc : acc = ∑ m ∈ Finset.range (2000 * t), f m)
    (hs : s = ∑ r ∈ Finset.range 2000, f (2000 * t + r)) :
    acc + s = ∑ m ∈ Finset.range (2000 * (t + 1)), f m := by
  rw [hacc, hs, Nat.mul_succ, Finset.sum_range_add]

end Cert.PoolSum

end
-- ==== Proof.ValR4.lean ====
import proofs.«420935_j80238579024178_3_alg».proof.Proof.Pieces4
import proofs.«420935_j80238579024178_3_alg».proof.Proof.Pay4
import proofs.«420935_j80238579024178_3_alg».proof.Proof.ValR4Sum

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec Cert.PoolSum

variable (V : (c : Dev nD) → (b : Ref sig .tc) → Buf (Elt Ideal) ((c : Thread nD τ).loc b))

theorem idx4_tile_0 : ∀ t : Fin cfg4.N, win4_0.index t 0 = t.val ∧ win4_0.index t 1 = 0 :=
  (by decide +kernel : ∀ t : Fin grid4.N, _)
theorem idx4_tile_1 : ∀ t : Fin cfg4.N, win4_1.index t 0 = t.val ∧ win4_1.index t 1 = 0 :=
  (by decide +kernel : ∀ t : Fin grid4.N, _)
theorem idx4_tile_2 : ∀ t : Fin cfg4.N, win4_2.index t 0 = t.val ∧ win4_2.index t 1 = 0 :=
  (by decide +kernel : ∀ t : Fin grid4.N, _)
theorem idx4_tile_6 : ∀ t : Fin cfg4.N, win4_6.index t 0 = t.val ∧ win4_6.index t 1 = 0 :=
  (by decide +kernel : ∀ t : Fin grid4.N, _)

theorem iblk4_0_apply (c : Dev nD) (t : Fin cfg4.N) (p : Fin 2000) (k : Fin 256) (r : Fin 50000)
    (hr : r.val = 2000 * t.val + p.val) :
    (iblk4 V c 0 t : Vec Ideal S2000x256 .f32) (ix2 p k) = (V c (Pipeline.arrRef spec4 0) : Arr2 50000 256) (ix2 r k) := by
  unfold iblk4
  rw [View.read_apply]
  show V c (Pipeline.arrRef spec4 0) _ = V c (Pipeline.arrRef spec4 0) _
  refine congrArg (V c (Pipeline.arrRef spec4 0)) (funext fun a => Fin.ext ?_)
  match a with
  | ⟨0, _⟩ =>
    show win4_0.index t 0 * 2000 + 1 * p.val = r.val
    rw [(idx4_tile_0 t).1, hr]; omega
  | ⟨1, _⟩ =>
    show win4_0.index t 1 * 256 + 1 * k.val = k.val
    rw [(idx4_tile_0 t).2]; omega

theorem iblk4_1_apply (c : Dev nD) (t : Fin cfg4.N) (p : Fin 2000) (k : Fin 1) (r : Fin 50000)
    (hr : r.val = 2000 * t.val + p.val) :
    (iblk4 V c 1 t : Vec Ideal S2000x1 .f32) (ix2 p k) = (V c (Pipeline.arrRef spec4 1) : Arr2 50000 1) (ix2 r k) := by
  unfold iblk4
  rw [View.read_apply]
  show V c (Pipeline.arrRef spec4 1) _ = V c (Pipeline.arrRef spec4 1) _
  refine congrArg (V c (Pipeline.arrRef spec4 1)) (funext fun a => Fin.ext ?_)
  match a with
  | ⟨0, _⟩ =>
    show win4_1.index t 0 * 2000 + 1 * p.val = r.val
    rw [(idx4_tile_1 t).1, hr]; omega
  | ⟨1, _⟩ =>
    show win4_1.index t 1 * 1 + 1 * k.val = k.val
    rw [(idx4_tile_1 t).2]; omega

theorem iblk4_2_apply (c : Dev nD) (t : Fin cfg4.N) (p : Fin 2000) (k : Fin 256) (r : Fin 50000)
    (hr : r.val = 2000 * t.val + p.val) :
    (iblk4 V c 2 t : Vec Ideal S2000x256 .bf16) (ix2 p k) = (V c (Pipeline.arrRef spec4 2) : Arr2 50000 256) (ix2 r k) := by
  unfold iblk4
  rw [View.read_apply]
  show V c (Pipeline.arrRef spec4 2) _ = V c (Pipeline.arrRef spec4 2) _
  refine congrArg (V c (Pipeline.arrRef spec4 2)) (funext fun a => Fin.ext ?_)
  match a with
  | ⟨0, _⟩ =>
    show win4_2.index t 0 * 2000 + 1 * p.val = r.val
    rw [(idx4_tile_2 t).1, hr]; omega
  | ⟨1, _⟩ =>
    show win4_2.index t 1 * 256 + 1 * k.val = k.val
    rw [(idx4_tile_2 t).2]; omega

theorem iblk4_6_apply (c : Dev nD) (t : Fin cfg4.N) (p : Fin 2000) (k : Fin 1) (r : Fin 50000)
    (hr : r.val = 2000 * t.val + p.val) :
    (iblk4 V c 6 t : Vec Ideal S2000x1 .i32) (ix2 p k) = (V c (Pipeline.arrRef spec4 6) : (⟨2, ![50000, 1]⟩ : Shape).Idx → BitVec 32) (ix2 r k) := by
  unfold iblk4
  rw [View.read_apply]
  show V c (Pipeline.arrRef spec4 6) _ = V c (Pipeline.arrRef spec4 6) _
  refine congrArg (V c (Pipeline.arrRef spec4 6)) (funext fun a => Fin.ext ?_)
  match a with
  | ⟨0, _⟩ =>
    show win4_6.index t 0 * 2000 + 1 * p.val = r.val
    rw [(idx4_tile_6 t).1, hr]; omega
  | ⟨1, _⟩ =>
    show win4_6.index t 1 * 1 + 1 * k.val = k.val
    rw [(idx4_tile_6 t).2]; omega

theorem idx4_whole_3 : ∀ t : Fin cfg4.N, win4_3.index t 0 = 0 ∧ win4_3.index t 1 = 0 :=
  (by decide +kernel : ∀ t : Fin grid4.N, _)

theorem iblk4_3_eq (c : Dev nD) (t : Fin cfg4.N) :
    (iblk4 V c 3 t : Vec Ideal S256x256 .f32) = (V c (Pipeline.arrRef spec4 3) : Arr2 256 256) := by
  funext i
  unfold iblk4
  rw [View.read_apply]
  show V c (Pipeline.arrRef spec4 3) _ = V c (Pipeline.arrRef spec4 3) _
  refine congrArg (V c (Pipeline.arrRef spec4 3)) (funext fun a => Fin.ext ?_)
  match a with
  | ⟨0, _⟩ =>
    show win4_3.index t 0 * 256 + 1 * (i 0).val = (i 0).val
    rw [(idx4_whole_3 t).1]; omega
  | ⟨1, _⟩ =>
    show win4_3.index t 1 * 256 + 1 * (i 1).val = (i 1).val
    rw [(idx4_whole_3 t).2]; omega

theorem idx4_whole_4 : ∀ t : Fin cfg4.N, win4_4.index t 0 = 0 :=
  (by decide +kernel : ∀ t : Fin grid4.N, _)

theorem iblk4_4_eq (c : Dev nD) (t : Fin cfg4.N) :
    (iblk4 V c 4 t : Vec Ideal S256 .f32) = (V c (Pipeline.arrRef spec4 4) : Arr1 256) := by
  funext i
  unfold iblk4
  rw [View.read_apply]
  show V c (Pipeline.arrRef spec4 4) _ = V c (Pipeline.arrRef spec4 4) _
  refine congrArg (V c (Pipeline.arrRef spec4 4)) (funext fun a => Fin.ext ?_)
  match a with
  | ⟨0, _⟩ =>
    show win4_4.index t 0 * 256 + 1 * (i 0).val = (i 0).val
    rw [idx4_whole_4 t]; omega

theorem idx4_whole_5 : ∀ t : Fin cfg4.N, win4_5.index t 0 = 0 ∧ win4_5.index t 1 = 0 :=
  (by decide +kernel : ∀ t : Fin grid4.N, _)

theorem iblk4_5_eq (c : Dev nD) (t : Fin cfg4.N) :
    (iblk4 V c 5 t : Vec Ideal S256x256 .f32) = (V c (Pipeline.arrRef spec4 5) : Arr2 256 256) := by
  funext i
  unfold iblk4
  rw [View.read_apply]
  show V c (Pipeline.arrRef spec4 5) _ = V c (Pipeline.arrRef spec4 5) _
  refine congrArg (V c (Pipeline.arrRef spec4 5)) (funext fun a => Fin.ext ?_)
  match a with
  | ⟨0, _⟩ =>
    show win4_5.index t 0 * 256 + 1 * (i 0).val = (i 0).val
    rw [(idx4_whole_5 t).1]; omega
  | ⟨1, _⟩ =>
    show win4_5.index t 1 * 256 + 1 * (i 1).val = (i 1).val
    rw [(idx4_whole_5 t).2]; omega

theorem idx4_whole_7 : ∀ t : Fin cfg4.N, win4_7.index t 0 = 0 ∧ win4_7.index t 1 = 0 :=
  (by decide +kernel : ∀ t : Fin grid4.N, _)

theorem iblk4_7_eq (c : Dev nD) (t : Fin cfg4.N) :
    (iblk4 V c 7 t : Vec Ideal S256x10 .f32) = (V c (Pipeline.arrRef spec4 7) : Arr2 256 10) := by
  funext i
  unfold iblk4
  rw [View.read_apply]
  show V c (Pipeline.arrRef spec4 7) _ = V c (Pipeline.arrRef spec4 7) _
  refine congrArg (V c (Pipeline.arrRef spec4 7)) (funext fun a => Fin.ext ?_)
  match a with
  | ⟨0, _⟩ =>
    show win4_7.index t 0 * 256 + 1 * (i 0).val = (i 0).val
    rw [(idx4_whole_7 t).1]; omega
  | ⟨1, _⟩ =>
    show win4_7.index t 1 * 10 + 1 * (i 1).val = (i 1).val
    rw [(idx4_whole_7 t).2]; omega

theorem idx4_whole_8 : ∀ t : Fin cfg4.N, win4_8.index t 0 = 0 :=
  (by decide +kernel : ∀ t : Fin grid4.N, _)

theorem iblk4_8_eq (c : Dev nD) (t : Fin cfg4.N) :
    (iblk4 V c 8 t : Vec Ideal S10 .f32) = (V c (Pipeline.arrRef spec4 8) : Arr1 10) := by
  funext i
  unfold iblk4
  rw [View.read_apply]
  show V c (Pipeline.arrRef spec4 8) _ = V c (Pipeline.arrRef spec4 8) _
  refine congrArg (V c (Pipeline.arrRef spec4 8)) (funext fun a => Fin.ext ?_)
  match a with
  | ⟨0, _⟩ =>
    show win4_8.index t 0 * 10 + 1 * (i 0).val = (i 0).val
    rw [idx4_whole_8 t]; omega

abbrev H5 (c : Dev nD) : Arr2 50000 256 :=
  layK (C := 256) (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))

abbrev lab4 (c : Dev nD) : Fin 50000 → BitVec 32 :=
  fun n => (V c (Pipeline.arrRef spec4 6) : (⟨2, ![50000, 1]⟩ : Shape).Idx → BitVec 32) (ix2 n 0)

abbrev hh4 (c : Dev nD) (t : Fin cfg4.N) : FVec Ideal S2000x256 .bf16 :=
  k4_pay6 (F := Ideal) (iblk4 V c 0 t) (iblk4 V c 1 t) (iblk4 V c 2 t) (iblk4 V c 3 t) (iblk4 V c 5 t) (iblk4 V c 4 t)

abbrev oh4 (c : Dev nD) (t : Fin cfg4.N) : FVec Ideal S2000x128 .bf16 := k4_pay7 (F := Ideal) (iblk4 V c 6 t)

theorem layRows4 (x0 : Vec Ideal S2000x256 .f32) (x1 : Vec Ideal S2000x1 .f32) (x2 : Vec Ideal S2000x256 .bf16)
    (x3 : Vec Ideal S256x256 .f32) (x4 : Vec Ideal S256 .f32) (x5 : Vec Ideal S256x256 .f32)
    (A0 : Arr2 50000 256) (A1 : Arr2 50000 1) (A2 : Arr2 50000 256) (A3 : Arr2 256 256) (A4 : Arr1 256) (A5 : Arr2 256 256)
    (n : ℕ)
    (h0 : ∀ (p : Fin 2000) (k : Fin 256) (r : Fin 50000), r.val = 2000 * n + p.val → x0 (ix2 p k) = A0 (ix2 r k))
    (h1 : ∀ (p : Fin 2000) (k : Fin 1) (r : Fin 50000), r.val = 2000 * n + p.val → x1 (ix2 p k) = A1 (ix2 r k))
    (h2 : ∀ (p : Fin 2000) (k : Fin 256) (r : Fin 50000), r.val = 2000 * n + p.val → x2 (ix2 p k) = A2 (ix2 r k))
    (h3 : x3 = A3) (h4 : x4 = A4) (h5 : x5 = A5)
    (p : Fin 2000) (q : Fin 256) (r : Fin 50000) (hr : r.val = 2000 * n + p.val) :
    k4_pay6 (F := Ideal) x0 x1 x2 x3 x5 x4 (ix2 p q) = layK (C := 256) A0 A1 A2 A3 A4 A5 (ix2 r q) := by
  rw [pay6_apply]
  show _ = max (((∑ k : Fin 256, (A0 (ix2 r k) * A1 (ix2 r 0)) * A3 (ix2 k q)) + ∑ k : Fin 256, A2 (ix2 r k) * A5 (ix2 k q))
      + A4 (ix1 q)) 0
  simp only [h0 p _ r hr, h1 p _ r hr, h2 p _ r hr, h3, h4, h5]

theorem hh4_apply (c : Dev nD) (t : Fin cfg4.N) (p : Fin 2000) (q : Fin 256) (r : Fin 50000)
    (hr : r.val = 2000 * t.val + p.val) : hh4 V c t (ix2 p q) = H5 V c (ix2 r q) :=
  layRows4 (iblk4 V c 0 t) (iblk4 V c 1 t) (iblk4 V c 2 t) (iblk4 V c 3 t) (iblk4 V c 4 t) (iblk4 V c 5 t)
    (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5)) t.val
    (fun p k r hr => iblk4_0_apply V c t p k r hr) (fun p k r hr => iblk4_1_apply V c t p k r hr)
    (fun p k r hr => iblk4_2_apply V c t p k r hr) (iblk4_3_eq V c t) (iblk4_4_eq V c t) (iblk4_5_eq V c t) p q r hr

theorem oh4_apply (c : Dev nD) (t : Fin cfg4.N) (p : Fin 2000) (g : Fin 128) (r : Fin 50000)
    (hr : r.val = 2000 * t.val + p.val) :
    oh4 V c t (ix2 p g) = if lab4 V c r = BitVec.ofNat 32 g.val then (1 : EReal) else 0 := by
  refine (pay7_apply (iblk4 V c 6 t) p g).trans ?_
  rw [iblk4_6_apply V c t p 0 r hr]

def chain4 (c : Dev nD) : (n : ℕ) → n < cfg4.N → Vec Ideal S128x256 .f32 × Vec Ideal S128x1 .f32
  | 0, h => (k4_pay1 (F := Ideal) (hh4 V c ⟨0, h⟩) (oh4 V c ⟨0, h⟩) (k4_pay4 (F := Ideal)),
      k4_pay2 (F := Ideal) (oh4 V c ⟨0, h⟩) (Scalar.ofBits .bf16 0x3F80#16) (k4_pay5 (F := Ideal)))
  | n + 1, h => (k4_pay1 (F := Ideal) (hh4 V c ⟨n + 1, h⟩) (oh4 V c ⟨n + 1, h⟩) (chain4 c n (Nat.lt_of_succ_lt h)).1,
      k4_pay2 (F := Ideal) (oh4 V c ⟨n + 1, h⟩) (Scalar.ofBits .bf16 0x3F80#16) (chain4 c n (Nat.lt_of_succ_lt h)).2)

theorem outsAt4_chain (c : Dev nD) : ∀ (n : ℕ) (h : n < cfg4.N), (outsAt4 V c n h).2 = chain4 V c n h
  | 0, h => by
    have h0 : (⟨0, h⟩ : Fin cfg4.N).val % 25 = 0 := rfl
    have h1 : ¬(⟨0, h⟩ : Fin cfg4.N).val % 25 = 24 := by dsimp only; omega
    rw [outsAt4_A V c ⟨0, h⟩ h0 h1]
    dsimp only
    rw [sout4_A_0_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) (ms4_8 ⟨0, h⟩) (hs4_8 ⟨0, h⟩) (ms4_9 ⟨0, h⟩) (hs4_9 ⟨0, h⟩) scM4_0 (Memref.isWhole_whole _) scM4_1 (Memref.isWhole_whole _) ((hcond4_0 ⟨0, h⟩).mpr h0) (fun hc => h1 ((hcond4_1 ⟨0, h⟩).mp hc)) (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩) (iblk4 V c 6 ⟨0, h⟩) (iblk4 V c 7 ⟨0, h⟩) (iblk4 V c 8 ⟨0, h⟩),
      sout4_A_1_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) (ms4_8 ⟨0, h⟩) (hs4_8 ⟨0, h⟩) (ms4_9 ⟨0, h⟩) (hs4_9 ⟨0, h⟩) scM4_0 (Memref.isWhole_whole _) scM4_1 (Memref.isWhole_whole _) ((hcond4_0 ⟨0, h⟩).mpr h0) (fun hc => h1 ((hcond4_1 ⟨0, h⟩).mp hc)) (iblk4 V c 0 ⟨0, h⟩) (iblk4 V c 1 ⟨0, h⟩) (iblk4 V c 2 ⟨0, h⟩) (iblk4 V c 3 ⟨0, h⟩) (iblk4 V c 4 ⟨0, h⟩) (iblk4 V c 5 ⟨0, h⟩) (iblk4 V c 6 ⟨0, h⟩) (iblk4 V c 7 ⟨0, h⟩) (iblk4 V c 8 ⟨0, h⟩)]
    rfl
  | n + 1, h => by
    have hN : cfg4.N = 25 := N_4
    have h0 : ¬(⟨n + 1, h⟩ : Fin cfg4.N).val % 25 = 0 := by dsimp only; omega
    by_cases h1 : (⟨n + 1, h⟩ : Fin cfg4.N).val % 25 = 24
    · rw [outsAt4_C V c ⟨n + 1, h⟩ h0 h1]
      dsimp only
      rw [sout4_C_0_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) (ms4_9 ⟨n + 1, h⟩) (hs4_9 ⟨n + 1, h⟩) scM4_0 (Memref.isWhole_whole _) scM4_1 (Memref.isWhole_whole _) (fun hc => h0 ((hcond4_0 ⟨n + 1, h⟩).mp hc)) ((hcond4_1 ⟨n + 1, h⟩).mpr h1) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (iblk4 V c 6 ⟨n + 1, h⟩) (iblk4 V c 7 ⟨n + 1, h⟩) (iblk4 V c 8 ⟨n + 1, h⟩) (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2,
        sout4_C_1_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) (ms4_9 ⟨n + 1, h⟩) (hs4_9 ⟨n + 1, h⟩) scM4_0 (Memref.isWhole_whole _) scM4_1 (Memref.isWhole_whole _) (fun hc => h0 ((hcond4_0 ⟨n + 1, h⟩).mp hc)) ((hcond4_1 ⟨n + 1, h⟩).mpr h1) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (iblk4 V c 6 ⟨n + 1, h⟩) (iblk4 V c 7 ⟨n + 1, h⟩) (iblk4 V c 8 ⟨n + 1, h⟩) (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2]
      show (k4_pay1 (F := Ideal) (hh4 V c ⟨n + 1, h⟩) (oh4 V c ⟨n + 1, h⟩) (outsAt4 V c n _).2.1,
        k4_pay2 (F := Ideal) (oh4 V c ⟨n + 1, h⟩) (Scalar.ofBits .bf16 0x3F80#16) (outsAt4 V c n _).2.2) = _
      rw [outsAt4_chain c n]
      rfl
    · rw [outsAt4_B V c ⟨n + 1, h⟩ h0 h1]
      dsimp only
      rw [sout4_B_0_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) (ms4_9 ⟨n + 1, h⟩) (hs4_9 ⟨n + 1, h⟩) scM4_0 (Memref.isWhole_whole _) scM4_1 (Memref.isWhole_whole _) (fun hc => h0 ((hcond4_0 ⟨n + 1, h⟩).mp hc)) (fun hc => h1 ((hcond4_1 ⟨n + 1, h⟩).mp hc)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (iblk4 V c 6 ⟨n + 1, h⟩) (iblk4 V c 7 ⟨n + 1, h⟩) (iblk4 V c 8 ⟨n + 1, h⟩) (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2,
        sout4_B_1_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (ms4_8 ⟨n + 1, h⟩) (hs4_8 ⟨n + 1, h⟩) (ms4_9 ⟨n + 1, h⟩) (hs4_9 ⟨n + 1, h⟩) scM4_0 (Memref.isWhole_whole _) scM4_1 (Memref.isWhole_whole _) (fun hc => h0 ((hcond4_0 ⟨n + 1, h⟩).mp hc)) (fun hc => h1 ((hcond4_1 ⟨n + 1, h⟩).mp hc)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (iblk4 V c 5 ⟨n + 1, h⟩) (iblk4 V c 6 ⟨n + 1, h⟩) (iblk4 V c 7 ⟨n + 1, h⟩) (iblk4 V c 8 ⟨n + 1, h⟩) (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2]
      show (k4_pay1 (F := Ideal) (hh4 V c ⟨n + 1, h⟩) (oh4 V c ⟨n + 1, h⟩) (outsAt4 V c n _).2.1,
        k4_pay2 (F := Ideal) (oh4 V c ⟨n + 1, h⟩) (Scalar.ofBits .bf16 0x3F80#16) (outsAt4 V c n _).2.2) = _
      rw [outsAt4_chain c n]
      rfl

theorem chain4_val (c : Dev nD) : ∀ (n : ℕ) (h : n < cfg4.N),
    (∀ (g : Fin 128) (q : Fin 256), (chain4 V c n h).1 (ix2 g q)
        = ∑ m ∈ Finset.range (2000 * (n + 1)), poolTerm (lab4 V c) (H5 V c) g q m)
    ∧ (∀ g : Fin 128, (chain4 V c n h).2 (ix2 g (0 : Fin 1))
        = ∑ m ∈ Finset.range (2000 * (n + 1)), cntTerm (lab4 V c) g m)
  | 0, h => by
    refine ⟨fun g q => ?_, fun g => ?_⟩
    · refine (pay1_apply (hh4 V c ⟨0, h⟩) (oh4 V c ⟨0, h⟩) (k4_pay4 (F := Ideal)) g q).trans ?_
      refine acc_tile (poolTerm (lab4 V c) (H5 V c) g q) 0 _ _ ?_
        (pool_tile (lab4 V c) (H5 V c) g q 0 (by omega) (oh4 V c ⟨0, h⟩) (hh4 V c ⟨0, h⟩)
          (fun r n hn => oh4_apply V c ⟨0, h⟩ r g n hn) (fun r n hn => hh4_apply V c ⟨0, h⟩ r q n hn))
      rw [pay4_eq, Nat.mul_zero, Finset.range_zero, Finset.sum_empty]
    · refine (pay2_apply (oh4 V c ⟨0, h⟩) (k4_pay5 (F := Ideal)) g).trans ?_
      refine acc_tile (cntTerm (lab4 V c) g) 0 _ _ ?_
        (cnt_tile (lab4 V c) g 0 (by omega) (oh4 V c ⟨0, h⟩) (fun r n hn => oh4_apply V c ⟨0, h⟩ r g n hn))
      rw [pay5_eq, Nat.mul_zero, Finset.range_zero, Finset.sum_empty]
  | n + 1, h => by
    have hN : cfg4.N = 25 := N_4
    obtain ⟨ih0, ih1⟩ := chain4_val c n (Nat.lt_of_succ_lt h)
    refine ⟨fun g q => ?_, fun g => ?_⟩
    · refine (pay1_apply (hh4 V c ⟨n + 1, h⟩) (oh4 V c ⟨n + 1, h⟩) (chain4 V c n (Nat.lt_of_succ_lt h)).1 g q).trans ?_
      exact acc_tile (poolTerm (lab4 V c) (H5 V c) g q) (n + 1) _ _ (ih0 g q)
        (pool_tile (lab4 V c) (H5 V c) g q (n + 1) (by omega) (oh4 V c ⟨n + 1, h⟩) (hh4 V c ⟨n + 1, h⟩)
          (fun r m hm => oh4_apply V c ⟨n + 1, h⟩ r g m hm) (fun r m hm => hh4_apply V c ⟨n + 1, h⟩ r q m hm))
    · refine (pay2_apply (oh4 V c ⟨n + 1, h⟩) (chain4 V c n (Nat.lt_of_succ_lt h)).2 g).trans ?_
      exact acc_tile (cntTerm (lab4 V c) g) (n + 1) _ _ (ih1 g)
        (cnt_tile (lab4 V c) g (n + 1) (by omega) (oh4 V c ⟨n + 1, h⟩) (fun r m hm => oh4_apply V c ⟨n + 1, h⟩ r g m hm))

abbrev result4 (c : Dev nD) : Arr2 128 10 :=
  lsmK (logitsOf (poolOf (lab4 V c) (H5 V c)) (cntOf (lab4 V c)) (V c (Pipeline.arrRef spec4 7)) (V c (Pipeline.arrRef spec4 8)))

theorem last4 (c : Dev nD) (h : 24 < cfg4.N) : (outsAt4 V c 24 h).1 = result4 V c := by
  have h0 : ¬(⟨24, h⟩ : Fin cfg4.N).val % 25 = 0 := by dsimp only; omega
  have h1 : (⟨24, h⟩ : Fin cfg4.N).val % 25 = 24 := rfl
  rw [outsAt4_C V c ⟨24, h⟩ h0 h1]
  dsimp only
  rw [out4_C_9_eq (F := Ideal) c (grid4.coords (⟨24, h⟩ : Fin cfg4.N)) (ms4_0 (⟨24, h⟩ : Fin cfg4.N)) (hs4_0 (⟨24, h⟩ : Fin cfg4.N)) (ms4_1 (⟨24, h⟩ : Fin cfg4.N)) (hs4_1 (⟨24, h⟩ : Fin cfg4.N)) (ms4_2 (⟨24, h⟩ : Fin cfg4.N)) (hs4_2 (⟨24, h⟩ : Fin cfg4.N)) (ms4_3 (⟨24, h⟩ : Fin cfg4.N)) (hs4_3 (⟨24, h⟩ : Fin cfg4.N)) (ms4_4 (⟨24, h⟩ : Fin cfg4.N)) (hs4_4 (⟨24, h⟩ : Fin cfg4.N)) (ms4_5 (⟨24, h⟩ : Fin cfg4.N)) (hs4_5 (⟨24, h⟩ : Fin cfg4.N)) (ms4_6 (⟨24, h⟩ : Fin cfg4.N)) (hs4_6 (⟨24, h⟩ : Fin cfg4.N)) (ms4_7 (⟨24, h⟩ : Fin cfg4.N)) (hs4_7 (⟨24, h⟩ : Fin cfg4.N)) (ms4_8 (⟨24, h⟩ : Fin cfg4.N)) (hs4_8 (⟨24, h⟩ : Fin cfg4.N)) (ms4_9 (⟨24, h⟩ : Fin cfg4.N)) (hs4_9 (⟨24, h⟩ : Fin cfg4.N)) scM4_0 (Memref.isWhole_whole _) scM4_1 (Memref.isWhole_whole _) (fun hc => h0 ((hcond4_0 (⟨24, h⟩ : Fin cfg4.N)).mp hc)) ((hcond4_1 (⟨24, h⟩ : Fin cfg4.N)).mpr h1) (iblk4 V c 0 (⟨24, h⟩ : Fin cfg4.N)) (iblk4 V c 1 (⟨24, h⟩ : Fin cfg4.N)) (iblk4 V c 2 (⟨24, h⟩ : Fin cfg4.N)) (iblk4 V c 3 (⟨24, h⟩ : Fin cfg4.N)) (iblk4 V c 4 (⟨24, h⟩ : Fin cfg4.N)) (iblk4 V c 5 (⟨24, h⟩ : Fin cfg4.N)) (iblk4 V c 6 (⟨24, h⟩ : Fin cfg4.N)) (iblk4 V c 7 (⟨24, h⟩ : Fin cfg4.N)) (iblk4 V c 8 (⟨24, h⟩ : Fin cfg4.N)) (outsAt4 V c ((⟨24, h⟩ : Fin cfg4.N).val - 1) (Nat.lt_of_le_of_lt (Nat.sub_le _ _) (⟨24, h⟩ : Fin cfg4.N).isLt)).2.1 (outsAt4 V c ((⟨24, h⟩ : Fin cfg4.N).val - 1) (Nat.lt_of_le_of_lt (Nat.sub_le _ _) (⟨24, h⟩ : Fin cfg4.N).isLt)).2.2]
  show k4_pay3 (F := Ideal) (k4_pay2 (F := Ideal) (oh4 V c ⟨24, h⟩) (Scalar.ofBits .bf16 0x3F80#16) (outsAt4 V c 23 _).2.2)
    (k4_pay1 (F := Ideal) (hh4 V c ⟨24, h⟩) (oh4 V c ⟨24, h⟩) (outsAt4 V c 23 _).2.1) (iblk4 V c 7 ⟨24, h⟩) (iblk4 V c 8 ⟨24, h⟩) = _
  rw [outsAt4_chain V c 23]
  show k4_pay3 (F := Ideal) (chain4 V c 24 h).2 (chain4 V c 24 h).1 (iblk4 V c 7 ⟨24, h⟩) (iblk4 V c 8 ⟨24, h⟩) = _
  refine (pay3_eq (chain4 V c 24 h).2 (chain4 V c 24 h).1 (iblk4 V c 7 ⟨24, h⟩) (iblk4 V c 8 ⟨24, h⟩)).trans ?_
  have e1 : (chain4 V c 24 h).1 = poolOf (lab4 V c) (H5 V c) := funext fun i => by
    obtain ⟨g, q, rfl⟩ : ∃ (g : Fin 128) (q : Fin 256), i = ix2 g q := ⟨i 0, i 1, eq_ix2 i⟩
    rw [(chain4_val V c 24 h).1 g q, poolOf_apply]
  have e2 : (fun g : Fin 128 => (chain4 V c 24 h).2 (ix2 g (0 : Fin 1))) = cntOf (lab4 V c) := funext fun g => by
    rw [(chain4_val V c 24 h).2 g, cntOf_apply]
  rw [e1, e2, iblk4_7_eq V c ⟨24, h⟩, iblk4_8_eq V c ⟨24, h⟩]

theorem flush4_9 : ∀ t : Fin cfg4.N, (cfg4.win 9).flush t = true ↔ t.val = 24 :=
  (by decide +kernel : ∀ t : Fin grid4.N, _)

abbrev tLast4 : Fin cfg4.N := ⟨24, by decide⟩

theorem flushed4_9 (c : Dev nD) (t : Fin cfg4.N) (hf : (cfg4.win 9).flush t = true) :
    (dat4 V c).flushed 9 t = ((cfg4.win 9).blk t).view.read (Elt Ideal) (result4 V c) := by
  have h24 : t.val = 24 := (flush4_9 t).mp hf
  obtain rfl : t = tLast4 := Fin.ext h24
  show (cfg4.win 9).cut (grid4.coords tLast4) ((dat4 V c).after 9 tLast4) = _
  rw [after4_9, last4]
  have hz' : (fun a => win4_9.index tLast4 a * main_v96.ty.shape.size a) = fun _ => 0 :=
    funext fun a => by fin_cases a <;> decide +kernel
  exact (Memref.read_access_unit_zero (Elt Ideal) main_v96 hz' (fun a => by rw [congrFun hz' a]; simp) (result4 V c)).symm

theorem arrAt4 (c : Dev nD) : (dat4 V c).arrAt 9 cfg4.N = result4 V c :=
  (dat4 V c).arrAt_eq_of_cover 9 (result4 V c) (flushed4_9 V c) fun i =>
    ⟨tLast4, (flush4_9 tLast4).mpr rfl, by
      show i ∈ ((View.whole main_v96).slice (win4_9.rect tLast4)).set
      rw [View.set_slice_whole, Rect.mem_set_unit]
      intro a
      have h0 : (i 0 : Nat) < 128 := (i 0).isLt
      have h1 : (i 1 : Nat) < 10 := (i 1).isLt
      match a with
      | ⟨0, _⟩ =>
        show win4_9.index tLast4 0 * win4_9.size 0 ≤ (i 0 : Nat)
          ∧ (i 0 : Nat) < win4_9.index tLast4 0 * win4_9.size 0 + win4_9.xsize (grid4.coords tLast4) 0
        rw [show win4_9.index tLast4 0 * win4_9.size 0 = 0 from by decide +kernel,
          show win4_9.xsize (grid4.coords tLast4) 0 = 128 from by decide +kernel]; omega
      | ⟨1, _⟩ =>
        show win4_9.index tLast4 1 * win4_9.size 1 ≤ (i 1 : Nat)
          ∧ (i 1 : Nat) < win4_9.index tLast4 1 * win4_9.size 1 + win4_9.xsize (grid4.coords tLast4) 1
        rw [show win4_9.index tLast4 1 * win4_9.size 1 = 0 from by decide +kernel,
          show win4_9.xsize (grid4.coords tLast4) 1 = 10 from by decide +kernel]; omega⟩

end Cert.KernelIdeal.Fr

end
-- ==== Proof.KVal.lean ====
import proofs.«420935_j80238579024178_3_alg».proof.Proof.FrRun
import proofs.«420935_j80238579024178_3_alg».proof.Proof.HostK
import proofs.«420935_j80238579024178_3_alg».proof.Proof.ValR0
import proofs.«420935_j80238579024178_3_alg».proof.Proof.ValR1
import proofs.«420935_j80238579024178_3_alg».proof.Proof.ValR2
import proofs.«420935_j80238579024178_3_alg».proof.Proof.ValR3
import proofs.«420935_j80238579024178_3_alg».proof.Proof.ValR4
import proofs.«420935_j80238579024178_3_alg».proof.Proof.Chain
import Idealize.ShloMosaic.Lib.ValueIdx

set_option maxRecDepth 16384

noncomputable section

namespace Cert.KernelIdeal.KVal

open Cert.KernelIdeal Cert.KernelIdeal.Gen Cert.KernelIdeal.Fr
open Idealize.ShloMosaic Idealize.ShloMosaic.TcCoe Idealize.ShloMosaic.ValueIdx Idealize.SL.Sem

theorem layK_congr {C : ℕ} {g g' : Cert.Spec.Arr2 50000 C} {v v' : Cert.Spec.Arr2 50000 1} {x x' : Cert.Spec.Arr2 50000 C}
    {wl wl' : Cert.Spec.Arr2 C 256} {b b' : Cert.Spec.Arr1 256} {wr wr' : Cert.Spec.Arr2 C 256}
    (e0 : g = g') (e1 : v = v') (e2 : x = x') (e3 : wl = wl') (e4 : b = b') (e5 : wr = wr') :
    Cert.Spec.layK g v x wl b wr = Cert.Spec.layK g' v' x' wl' b' wr' := by
  subst e0 e1 e2 e3 e4 e5; rfl

theorem agg256_congr {sv sv' dv dv' : IVec S800000 32} {h h' : Cert.Spec.Arr2 50000 256}
    (e0 : sv = sv') (e1 : dv = dv') (e2 : h = h') : aggKv256 sv dv h = aggKv256 sv' dv' h' := by
  subst e0 e1 e2; rfl

theorem head_congr {b b' : Fin 50000 → BitVec 32} {h h' : Cert.Spec.Arr2 50000 256} {wo wo' : Cert.Spec.Arr2 256 10}
    {bo bo' : Cert.Spec.Arr1 10} (e0 : b = b') (e1 : h = h') (e2 : wo = wo') (e3 : bo = bo') :
    Cert.Spec.lsmK (Cert.Spec.logitsOf (Cert.Spec.poolOf b h) (Cert.Spec.cntOf b) wo bo)
      = Cert.Spec.lsmK (Cert.Spec.logitsOf (Cert.Spec.poolOf b' h') (Cert.Spec.cntOf b') wo' bo') := by
  subst e0 e1 e2 e3; rfl

def Untouched (r : Ref sig .tc) : Prop :=
  r ∉ hostOps0_W ∧ r ≠ main_v23 ∧ r ∉ hostOps1_W ∧ r ≠ main_v41 ∧ r ∉ hostOps2_W ∧ r ≠ main_v59 ∧ r ∉ hostOps3_W
    ∧ r ≠ main_v77 ∧ r ∉ hostOps4_W

def Settled (r : Ref sig .tc) : Prop :=
  r ≠ main_v23 ∧ r ∉ hostOps1_W ∧ r ≠ main_v41 ∧ r ∉ hostOps2_W ∧ r ≠ main_v59 ∧ r ∉ hostOps3_W ∧ r ≠ main_v77
    ∧ r ∉ hostOps4_W

section
variable (m : (ℓ : Loc nD τ sig) → Buf (Elt Ideal) ℓ) (ρ : Dev nD → PrngReg) (c : Dev nD)

theorem keep1 (r : Ref sig .tc) (h : Untouched r) : W1 m ρ c (Proc.devRef .tc r) = m ((c : Thread nD τ).loc r) :=
  (W1_of m ρ c r h.1).trans rfl
theorem keep2 (r : Ref sig .tc) (h : Untouched r) : W2 m ρ c (Proc.devRef .tc r) = m ((c : Thread nD τ).loc r) :=
  (W2_of m ρ c r h.2.1).trans (keep1 m ρ c r h)
theorem keep3 (r : Ref sig .tc) (h : Untouched r) : W3 m ρ c (Proc.devRef .tc r) = m ((c : Thread nD τ).loc r) :=
  (W3_of m ρ c r h.2.2.1).trans (keep2 m ρ c r h)
theorem keep4 (r : Ref sig .tc) (h : Untouched r) : W4 m ρ c (Proc.devRef .tc r) = m ((c : Thread nD τ).loc r) :=
  (W4_of m ρ c r h.2.2.2.1).trans (keep3 m ρ c r h)
theorem keep5 (r : Ref sig .tc) (h : Untouched r) : W5 m ρ c (Proc.devRef .tc r) = m ((c : Thread nD τ).loc r) :=
  (W5_of m ρ c r h.2.2.2.2.1).trans (keep4 m ρ c r h)
theorem keep6 (r : Ref sig .tc) (h : Untouched r) : W6 m ρ c (Proc.devRef .tc r) = m ((c : Thread nD τ).loc r) :=
  (W6_of m ρ c r h.2.2.2.2.2.1).trans (keep5 m ρ c r h)
theorem keep7 (r : Ref sig .tc) (h : Untouched r) : W7 m ρ c (Proc.devRef .tc r) = m ((c : Thread nD τ).loc r) :=
  (W7_of m ρ c r h.2.2.2.2.2.2.1).trans (keep6 m ρ c r h)
theorem keep8 (r : Ref sig .tc) (h : Untouched r) : W8 m ρ c (Proc.devRef .tc r) = m ((c : Thread nD τ).loc r) :=
  (W8_of m ρ c r h.2.2.2.2.2.2.2.1).trans (keep7 m ρ c r h)
theorem keep9 (r : Ref sig .tc) (h : Untouched r) : W9 m ρ c (Proc.devRef .tc r) = m ((c : Thread nD τ).loc r) :=
  (W9_of m ρ c r h.2.2.2.2.2.2.2.2).trans (keep8 m ρ c r h)

theorem set2 (r : Ref sig .tc) (h : Settled r) : W2 m ρ c (Proc.devRef .tc r) = W1 m ρ c (Proc.devRef .tc r) :=
  (W2_of m ρ c r h.1).trans rfl
theorem set3 (r : Ref sig .tc) (h : Settled r) : W3 m ρ c (Proc.devRef .tc r) = W1 m ρ c (Proc.devRef .tc r) :=
  (W3_of m ρ c r h.2.1).trans (set2 m ρ c r h)
theorem set4 (r : Ref sig .tc) (h : Settled r) : W4 m ρ c (Proc.devRef .tc r) = W1 m ρ c (Proc.devRef .tc r) :=
  (W4_of m ρ c r h.2.2.1).trans (set3 m ρ c r h)
theorem set5 (r : Ref sig .tc) (h : Settled r) : W5 m ρ c (Proc.devRef .tc r) = W1 m ρ c (Proc.devRef .tc r) :=
  (W5_of m ρ c r h.2.2.2.1).trans (set4 m ρ c r h)
theorem set6 (r : Ref sig .tc) (h : Settled r) : W6 m ρ c (Proc.devRef .tc r) = W1 m ρ c (Proc.devRef .tc r) :=
  (W6_of m ρ c r h.2.2.2.2.1).trans (set5 m ρ c r h)
theorem set7 (r : Ref sig .tc) (h : Settled r) : W7 m ρ c (Proc.devRef .tc r) = W1 m ρ c (Proc.devRef .tc r) :=
  (W7_of m ρ c r h.2.2.2.2.2.1).trans (set6 m ρ c r h)
theorem set8 (r : Ref sig .tc) (h : Settled r) : W8 m ρ c (Proc.devRef .tc r) = W1 m ρ c (Proc.devRef .tc r) :=
  (W8_of m ρ c r h.2.2.2.2.2.2.1).trans (set7 m ρ c r h)
theorem set9 (r : Ref sig .tc) (h : Settled r) : W9 m ρ c (Proc.devRef .tc r) = W1 m ρ c (Proc.devRef .tc r) :=
  (W9_of m ρ c r h.2.2.2.2.2.2.2).trans (set8 m ρ c r h)

theorem untouched_arg0 : Untouched main_arg0 := by unfold Untouched; decide
theorem untouched_arg2 : Untouched main_arg2 := by unfold Untouched; decide
theorem untouched_arg3 : Untouched main_arg3 := by unfold Untouched; decide
theorem untouched_arg4 : Untouched main_arg4 := by unfold Untouched; decide
theorem untouched_arg5 : Untouched main_arg5 := by unfold Untouched; decide
theorem untouched_arg6 : Untouched main_arg6 := by unfold Untouched; decide
theorem untouched_arg7 : Untouched main_arg7 := by unfold Untouched; decide
theorem untouched_arg8 : Untouched main_arg8 := by unfold Untouched; decide
theorem untouched_arg9 : Untouched main_arg9 := by unfold Untouched; decide
theorem untouched_arg10 : Untouched main_arg10 := by unfold Untouched; decide
theorem settled_v12 : Settled main_v12 := by unfold Settled; decide
theorem settled_v1 : Settled main_v1 := by unfold Settled; decide
theorem settled_v3 : Settled main_v3 := by unfold Settled; decide

def h1 : Cert.Spec.Arr2 50000 256 :=
  Cert.Spec.layK (C := 128) (aggK128 (m ((c : Thread nD τ).loc main_arg1)) (m ((c : Thread nD τ).loc main_arg0))) (invK (m ((c : Thread nD τ).loc main_arg1))) (m ((c : Thread nD τ).loc main_arg0)) (m ((c : Thread nD τ).loc main_arg3)) (m ((c : Thread nD τ).loc main_arg5)) (m ((c : Thread nD τ).loc main_arg4))

def h2 : Cert.Spec.Arr2 50000 256 :=
  Cert.Spec.layK (C := 256) (aggK256 (m ((c : Thread nD τ).loc main_arg1)) (h1 m c)) (invK (m ((c : Thread nD τ).loc main_arg1))) (h1 m c)
    (Cert.Spec.slab (m ((c : Thread nD τ).loc main_arg6)) 0) (Cert.Spec.row (m ((c : Thread nD τ).loc main_arg8)) 0) (Cert.Spec.slab (m ((c : Thread nD τ).loc main_arg7)) 0)

def h3 : Cert.Spec.Arr2 50000 256 :=
  Cert.Spec.layK (C := 256) (aggK256 (m ((c : Thread nD τ).loc main_arg1)) (h2 m c)) (invK (m ((c : Thread nD τ).loc main_arg1))) (h2 m c)
    (Cert.Spec.slab (m ((c : Thread nD τ).loc main_arg6)) 1) (Cert.Spec.row (m ((c : Thread nD τ).loc main_arg8)) 1) (Cert.Spec.slab (m ((c : Thread nD τ).loc main_arg7)) 1)

def h4 : Cert.Spec.Arr2 50000 256 :=
  Cert.Spec.layK (C := 256) (aggK256 (m ((c : Thread nD τ).loc main_arg1)) (h3 m c)) (invK (m ((c : Thread nD τ).loc main_arg1))) (h3 m c)
    (Cert.Spec.slab (m ((c : Thread nD τ).loc main_arg6)) 2) (Cert.Spec.row (m ((c : Thread nD τ).loc main_arg8)) 2) (Cert.Spec.slab (m ((c : Thread nD τ).loc main_arg7)) 2)

def h5 : Cert.Spec.Arr2 50000 256 :=
  Cert.Spec.layK (C := 256) (aggK256 (m ((c : Thread nD τ).loc main_arg1)) (h4 m c)) (invK (m ((c : Thread nD τ).loc main_arg1))) (h4 m c)
    (Cert.Spec.slab (m ((c : Thread nD τ).loc main_arg6)) 3) (Cert.Spec.row (m ((c : Thread nD τ).loc main_arg8)) 3) (Cert.Spec.slab (m ((c : Thread nD τ).loc main_arg7)) 3)

theorem w1_v22 : W1 m ρ c (Proc.devRef .tc main_v22) = aggK128 (m ((c : Thread nD τ).loc main_arg1)) (m ((c : Thread nD τ).loc main_arg0)) := after0_v22 (W0 m ρ c)
theorem w1_v12 : W1 m ρ c (Proc.devRef .tc main_v12) = invK (m ((c : Thread nD τ).loc main_arg1)) := after0_v12 (W0 m ρ c)
theorem w1_v1 : W1 m ρ c (Proc.devRef .tc main_v1) = srcv (m ((c : Thread nD τ).loc main_arg1)) := after0_v1 (W0 m ρ c)
theorem w1_v3 : W1 m ρ c (Proc.devRef .tc main_v3) = dstv (m ((c : Thread nD τ).loc main_arg1)) := after0_v3 (W0 m ρ c)

theorem w2_v23 : W2 m ρ c (Proc.devRef .tc main_v23) = h1 m c :=
  (W2_arr m ρ c 6).trans ((arrAt0 (V1 m ρ) c).trans
    (layK_congr (w1_v22 m ρ c) (w1_v12 m ρ c) (keep1 m ρ c main_arg0 untouched_arg0) (keep1 m ρ c main_arg3 untouched_arg3)
      (keep1 m ρ c main_arg5 untouched_arg5) (keep1 m ρ c main_arg4 untouched_arg4)))

theorem w3_v34 : W3 m ρ c (Proc.devRef .tc main_v34) = aggK256 (m ((c : Thread nD τ).loc main_arg1)) (h1 m c) :=
  (after1_v34 (W2 m ρ c)).trans
    (agg256_congr ((set2 m ρ c main_v1 settled_v1).trans (w1_v1 m ρ c)) ((set2 m ρ c main_v3 settled_v3).trans (w1_v3 m ρ c))
      (w2_v23 m ρ c))
theorem w3_v36 : W3 m ρ c (Proc.devRef .tc main_v36) = Cert.Spec.slab (m ((c : Thread nD τ).loc main_arg6)) 0 :=
  (after1_v36 (W2 m ρ c)).trans (congrArg (fun z => Cert.Spec.slab z 0) (keep2 m ρ c main_arg6 untouched_arg6))
theorem w3_v38 : W3 m ρ c (Proc.devRef .tc main_v38) = Cert.Spec.row (m ((c : Thread nD τ).loc main_arg8)) 0 :=
  (after1_v38 (W2 m ρ c)).trans (congrArg (fun z => Cert.Spec.row z 0) (keep2 m ρ c main_arg8 untouched_arg8))
theorem w3_v40 : W3 m ρ c (Proc.devRef .tc main_v40) = Cert.Spec.slab (m ((c : Thread nD τ).loc main_arg7)) 0 :=
  (after1_v40 (W2 m ρ c)).trans (congrArg (fun z => Cert.Spec.slab z 0) (keep2 m ρ c main_arg7 untouched_arg7))
theorem w3_v12 : W3 m ρ c (Proc.devRef .tc main_v12) = invK (m ((c : Thread nD τ).loc main_arg1)) :=
  (set3 m ρ c main_v12 settled_v12).trans (w1_v12 m ρ c)
theorem w3_v23 : W3 m ρ c (Proc.devRef .tc main_v23) = h1 m c :=
  (W3_of m ρ c main_v23 (by decide)).trans (w2_v23 m ρ c)

theorem w4_v41 : W4 m ρ c (Proc.devRef .tc main_v41) = h2 m c :=
  (W4_arr m ρ c 6).trans ((arrAt1 (V3 m ρ) c).trans
    (layK_congr (w3_v34 m ρ c) (w3_v12 m ρ c) (w3_v23 m ρ c)
      (w3_v36 m ρ c) (w3_v38 m ρ c) (w3_v40 m ρ c)))

theorem w5_v52 : W5 m ρ c (Proc.devRef .tc main_v52) = aggK256 (m ((c : Thread nD τ).loc main_arg1)) (h2 m c) :=
  (after2_v52 (W4 m ρ c)).trans
    (agg256_congr ((set4 m ρ c main_v1 settled_v1).trans (w1_v1 m ρ c)) ((set4 m ρ c main_v3 settled_v3).trans (w1_v3 m ρ c))
      (w4_v41 m ρ c))
theorem w5_v54 : W5 m ρ c (Proc.devRef .tc main_v54) = Cert.Spec.slab (m ((c : Thread nD τ).loc main_arg6)) 1 :=
  (after2_v54 (W4 m ρ c)).trans (congrArg (fun z => Cert.Spec.slab z 1) (keep4 m ρ c main_arg6 untouched_arg6))
theorem w5_v56 : W5 m ρ c (Proc.devRef .tc main_v56) = Cert.Spec.row (m ((c : Thread nD τ).loc main_arg8)) 1 :=
  (after2_v56 (W4 m ρ c)).trans (congrArg (fun z => Cert.Spec.row z 1) (keep4 m ρ c main_arg8 untouched_arg8))
theorem w5_v58 : W5 m ρ c (Proc.devRef .tc main_v58) = Cert.Spec.slab (m ((c : Thread nD τ).loc main_arg7)) 1 :=
  (after2_v58 (W4 m ρ c)).trans (congrArg (fun z => Cert.Spec.slab z 1) (keep4 m ρ c main_arg7 untouched_arg7))
theorem w5_v12 : W5 m ρ c (Proc.devRef .tc main_v12) = invK (m ((c : Thread nD τ).loc main_arg1)) :=
  (set5 m ρ c main_v12 settled_v12).trans (w1_v12 m ρ c)
theorem w5_v41 : W5 m ρ c (Proc.devRef .tc main_v41) = h2 m c :=
  (W5_of m ρ c main_v41 (by decide)).trans (w4_v41 m ρ c)

theorem w6_v59 : W6 m ρ c (Proc.devRef .tc main_v59) = h3 m c :=
  (W6_arr m ρ c 6).trans ((arrAt2 (V5 m ρ) c).trans
    (layK_congr (w5_v52 m ρ c) (w5_v12 m ρ c) (w5_v41 m ρ c)
      (w5_v54 m ρ c) (w5_v56 m ρ c) (w5_v58 m ρ c)))

theorem w7_v70 : W7 m ρ c (Proc.devRef .tc main_v70) = aggK256 (m ((c : Thread nD τ).loc main_arg1)) (h3 m c) :=
  (after3_v70 (W6 m ρ c)).trans
    (agg256_congr ((set6 m ρ c main_v1 settled_v1).trans (w1_v1 m ρ c)) ((set6 m ρ c main_v3 settled_v3).trans (w1_v3 m ρ c))
      (w6_v59 m ρ c))
theorem w7_v72 : W7 m ρ c (Proc.devRef .tc main_v72) = Cert.Spec.slab (m ((c : Thread nD τ).loc main_arg6)) 2 :=
  (after3_v72 (W6 m ρ c)).trans (congrArg (fun z => Cert.Spec.slab z 2) (keep6 m ρ c main_arg6 untouched_arg6))
theorem w7_v74 : W7 m ρ c (Proc.devRef .tc main_v74) = Cert.Spec.row (m ((c : Thread nD τ).loc main_arg8)) 2 :=
  (after3_v74 (W6 m ρ c)).trans (congrArg (fun z => Cert.Spec.row z 2) (keep6 m ρ c main_arg8 untouched_arg8))
theorem w7_v76 : W7 m ρ c (Proc.devRef .tc main_v76) = Cert.Spec.slab (m ((c : Thread nD τ).loc main_arg7)) 2 :=
  (after3_v76 (W6 m ρ c)).trans (congrArg (fun z => Cert.Spec.slab z 2) (keep6 m ρ c main_arg7 untouched_arg7))
theorem w7_v12 : W7 m ρ c (Proc.devRef .tc main_v12) = invK (m ((c : Thread nD τ).loc main_arg1)) :=
  (set7 m ρ c main_v12 settled_v12).trans (w1_v12 m ρ c)
theorem w7_v59 : W7 m ρ c (Proc.devRef .tc main_v59) = h3 m c :=
  (W7_of m ρ c main_v59 (by decide)).trans (w6_v59 m ρ c)

theorem w8_v77 : W8 m ρ c (Proc.devRef .tc main_v77) = h4 m c :=
  (W8_arr m ρ c 6).trans ((arrAt3 (V7 m ρ) c).trans
    (layK_congr (w7_v70 m ρ c) (w7_v12 m ρ c) (w7_v59 m ρ c)
      (w7_v72 m ρ c) (w7_v74 m ρ c) (w7_v76 m ρ c)))

theorem w9_v88 : W9 m ρ c (Proc.devRef .tc main_v88) = aggK256 (m ((c : Thread nD τ).loc main_arg1)) (h4 m c) :=
  (after4_v88 (W8 m ρ c)).trans
    (agg256_congr ((set8 m ρ c main_v1 settled_v1).trans (w1_v1 m ρ c)) ((set8 m ρ c main_v3 settled_v3).trans (w1_v3 m ρ c))
      (w8_v77 m ρ c))
theorem w9_v91 : W9 m ρ c (Proc.devRef .tc main_v91) = Cert.Spec.slab (m ((c : Thread nD τ).loc main_arg6)) 3 :=
  (after4_v91 (W8 m ρ c)).trans (congrArg (fun z => Cert.Spec.slab z 3) (keep8 m ρ c main_arg6 untouched_arg6))
theorem w9_v93 : W9 m ρ c (Proc.devRef .tc main_v93) = Cert.Spec.row (m ((c : Thread nD τ).loc main_arg8)) 3 :=
  (after4_v93 (W8 m ρ c)).trans (congrArg (fun z => Cert.Spec.row z 3) (keep8 m ρ c main_arg8 untouched_arg8))
theorem w9_v95 : W9 m ρ c (Proc.devRef .tc main_v95) = Cert.Spec.slab (m ((c : Thread nD τ).loc main_arg7)) 3 :=
  (after4_v95 (W8 m ρ c)).trans (congrArg (fun z => Cert.Spec.slab z 3) (keep8 m ρ c main_arg7 untouched_arg7))
theorem w9_v12 : W9 m ρ c (Proc.devRef .tc main_v12) = invK (m ((c : Thread nD τ).loc main_arg1)) :=
  (set9 m ρ c main_v12 settled_v12).trans (w1_v12 m ρ c)
theorem w9_v77 : W9 m ρ c (Proc.devRef .tc main_v77) = h4 m c :=
  (W9_of m ρ c main_v77 (by decide)).trans (w8_v77 m ρ c)

theorem w9_labels : (fun n : Fin 50000 => W9 m ρ c (Proc.devRef .tc main_v89) (ix2 n 0)) = fun n => (m ((c : Thread nD τ).loc main_arg2)) (ix1 n) :=
  funext fun n => (congrFun (after4_v89 (W8 m ρ c)) (ix2 n 0)).trans (congrFun (keep8 m ρ c main_arg2 untouched_arg2) (ix1 n))

theorem netK_layers : Cert.Spec.netK (aggK128 (m ((c : Thread nD τ).loc main_arg1))) (aggK256 (m ((c : Thread nD τ).loc main_arg1))) (invK (m ((c : Thread nD τ).loc main_arg1))) (fun n => (m ((c : Thread nD τ).loc main_arg2)) (ix1 n))
      (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    = Cert.Spec.lsmK (Cert.Spec.logitsOf (Cert.Spec.poolOf (fun n => (m ((c : Thread nD τ).loc main_arg2)) (ix1 n)) (h5 m c)) (Cert.Spec.cntOf (fun n => (m ((c : Thread nD τ).loc main_arg2)) (ix1 n)))
        (m ((c : Thread nD τ).loc main_arg9)) (m ((c : Thread nD τ).loc main_arg10))) := rfl

theorem kernel_val : W10 m ρ c (Proc.devRef .tc main_v96)
    = Cert.Spec.netK (aggK128 (m ((c : Thread nD τ).loc main_arg1))) (aggK256 (m ((c : Thread nD τ).loc main_arg1))) (invK (m ((c : Thread nD τ).loc main_arg1))) (fun n => (m ((c : Thread nD τ).loc main_arg2)) (ix1 n))
        (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W10_arr m ρ c 9).trans ((arrAt4 (V9 m ρ) c).trans ((head_congr (w9_labels m ρ c)
    (layK_congr (w9_v88 m ρ c) (w9_v12 m ρ c) (w9_v77 m ρ c) (w9_v91 m ρ c) (w9_v93 m ρ c) (w9_v95 m ρ c))
    (keep9 m ρ c main_arg9 untouched_arg9) (keep9 m ρ c main_arg10 untouched_arg10)).trans (netK_layers m c).symm))

end

end Cert.KernelIdeal.KVal

end
-- ==== Proof.HostKFacts.lean ====
import proofs.«420935_j80238579024178_3_alg».proof.Proof.HostKDefs
import proofs.«420935_j80238579024178_3_alg».proof.Proof.Spec
import proofs.«420935_j80238579024178_3_alg».proof.Proof.SpecLaws
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.KVal

open Cert.KernelIdeal Cert.KernelIdeal.Gen Idealize.ShloMosaic Idealize.ShloMosaic.ValueIdx

theorem max_nat_one (k : ℕ) : ∃ r : ℝ, r ≠ 0 ∧ max (((k : ℝ) : EReal)) 1 = (r : EReal) := by
  rcases le_total (k : ℝ) 1 with h | h
  · exact ⟨1, one_ne_zero, by rw [max_eq_right (by exact_mod_cast h), EReal.coe_one]⟩
  · exact ⟨k, by linarith, max_eq_left (by exact_mod_cast h)⟩

theorem sum_ones_nat {ι : Type} (s : Finset ι) (f : ι → EReal) (hf : ∀ j, f j = 1) :
    ∃ k : ℕ, ∑ j ∈ s, f j = ((k : ℝ) : EReal) := by
  classical
  induction s using Finset.induction_on with
  | empty => exact ⟨0, by rw [Finset.sum_empty, Nat.cast_zero, EReal.coe_zero]⟩
  | insert a s ha ih =>
    obtain ⟨k, hk⟩ := ih
    exact ⟨k + 1, by rw [Finset.sum_insert ha, hk, hf a, Nat.cast_succ, EReal.coe_add, EReal.coe_one, add_comm]⟩

theorem scatterOnes_nat {s si su : Shape} (d : ScatterDims s si su) (x : FVec Ideal s .f32) (idx : IVec si 32)
    (upd : FVec Ideal su .f32) (hx : ∀ i, x i = 0) (hu : ∀ j, upd j = 1) (i : s.Idx) :
    ∃ k : ℕ, Host.scatterAdd (F := Ideal) (φ := .f32) d x idx upd i = ((k : ℝ) : EReal) := by
  have e : Host.scatterAdd (F := Ideal) (φ := .f32) d x idx upd i = Ideal.hostScatterAdd d x idx upd i := rfl
  rw [e, Ideal.hostScatterAdd, hx i, zero_add]
  exact sum_ones_nat _ upd hu

theorem bcast_zero {T : Shape} (h : (⟨0, ![]⟩ : Shape).BroadcastsInDim T ![]) (j : T.Idx) :
    broadcastInDim T ![] h (constant (F := Ideal) (⟨0, ![]⟩ : Shape) .f32 0x00000000#32) j = (0 : EReal) := by
  rw [broadcastInDim_scalar_apply, constant_apply, Ideal.ofBits_zero_f32]

theorem bcast_one {T : Shape} (h : (⟨0, ![]⟩ : Shape).BroadcastsInDim T ![]) (j : T.Idx) :
    broadcastInDim T ![] h (constant (F := Ideal) (⟨0, ![]⟩ : Shape) .f32 0x3F800000#32) j = (1 : EReal) := by
  rw [broadcastInDim_scalar_apply, constant_apply, Ideal.ofBits_one_f32]

theorem scatterAdd_real {s si su : Shape} (d : ScatterDims s si su) (x : FVec Ideal s .f32) (idx : IVec si 32)
    (upd : FVec Ideal su .f32) (hx : ∀ i, Cert.Spec.IsReal (x i)) (hu : ∀ j, Cert.Spec.IsReal (upd j)) (i : s.Idx) :
    Cert.Spec.IsReal (Host.scatterAdd (F := Ideal) (φ := .f32) d x idx upd i) := by
  have e : Host.scatterAdd (F := Ideal) (φ := .f32) d x idx upd i = Ideal.hostScatterAdd d x idx upd i := rfl
  rw [e, Ideal.hostScatterAdd]
  exact (hx i).add (Cert.Spec.IsReal.sum _ _ fun j _ => hu j)

theorem gather_real {s si t : Shape} (d : GatherDims s si t) (x : s.Idx → EReal) (idx : IVec si 32)
    (hx : ∀ i, Cert.Spec.IsReal (x i)) (j : t.Idx) : Cert.Spec.IsReal (Host.gather d x idx j) := hx _

theorem degK_nat (x1 : IVec S2x800000 32) (n : Fin 50000) : ∃ k : ℕ, degK x1 (ix1 n) = ((k : ℝ) : EReal) := by
  unfold degK
  have hx : ∀ i, (broadcastInDim S50000 ![] bcast_S_S50000 (constant (F := Ideal) S_ .f32 0x00000000#32)) i = (0 : EReal) :=
    fun i => bcast_zero bcast_S_S50000 i
  have hu : ∀ j, (broadcastInDim S800000 ![] bcast_S_S800000 (constant (F := Ideal) S_ .f32 0x3F800000#32)) j = (1 : EReal) :=
    fun j => bcast_one bcast_S_S800000 j
  exact scatterOnes_nat scatter_S50000_S800000x1_S800000_n_0_0_1 _ _ _ hx hu (ix1 n)

theorem DK_real (x1 : IVec S2x800000 32) (n : Fin 50000) : ∃ r : ℝ, r ≠ 0 ∧ DK x1 (ix1 n) = (r : EReal) := by
  obtain ⟨k, hk⟩ := degK_nat x1 n
  obtain ⟨r, hr, h⟩ := max_nat_one k
  refine ⟨r, hr, ?_⟩
  unfold DK
  have h1 : (broadcastInDim S50000 ![] bcast_S_S50000 (constant (F := Ideal) S_ .f32 0x3F800000#32)) (ix1 n) = (1 : EReal) :=
    bcast_one bcast_S_S50000 (ix1 n)
  rw [maximumf_apply, h1, hk, h]

theorem invK_eq (x1 : IVec S2x800000 32) (n : Fin 50000) : invK x1 (ix2 n (0 : Fin 1)) = Ideal.div 1 (DK x1 (ix1 n)) := by
  unfold invK
  have h1 : (broadcastInDim S50000 ![] bcast_S_S50000 (constant (F := Ideal) S_ .f32 0x3F800000#32)) (ix1 n) = (1 : EReal) :=
    bcast_one bcast_S_S50000 (ix1 n)
  rw [broadcastInDim_apply _ bcast_S50000_S50000x1_0 _ (ix2 n (0 : Fin 1)) (ix1 n) (fun a => match a with
    | ⟨0, _⟩ => by show n.val = if (50000 : Nat) = 1 then 0 else n.val; rw [if_neg (by decide)])]
  rw [hostDivf_apply, h1]

theorem aggKv128_real (sv dv : IVec S800000 32) (h : Spec.Arr2 50000 128) (hh : ∀ i, Cert.Spec.IsReal (h i)) :
    ∀ i, Cert.Spec.IsReal (aggKv128 sv dv h i) := by
  intro i
  unfold aggKv128
  have hx : ∀ i, Cert.Spec.IsReal ((broadcastInDim S50000x128 ![] bcast_S_S50000x128 (constant (F := Ideal) S_ .f32 0x00000000#32)) i) :=
    fun i => by rw [bcast_zero bcast_S_S50000x128 i]; exact Cert.Spec.IsReal.zero
  have hu : ∀ j, Cert.Spec.IsReal ((Host.gather gather_S50000x128_S800000x1_S800000x128_1_0_n_n_0_1_1128 h (broadcastInDim S800000x1 ![0] bcast_S800000_S800000x1_0 (select (cmpi .slt sv (broadcastInDim S800000 ![] bcast_S_S800000 (constantI S_ 32 0#32))) (addi sv (broadcastInDim S800000 ![] bcast_S_S800000 (constantI S_ 32 50000#32))) sv))) j) :=
    fun j => gather_real gather_S50000x128_S800000x1_S800000x128_1_0_n_n_0_1_1128 h _ hh j
  exact scatterAdd_real scatter_S50000x128_S800000x1_S800000x128_1_0_0_1 _ _ _ hx hu i

theorem aggKv256_real (sv dv : IVec S800000 32) (h : Spec.Arr2 50000 256) (hh : ∀ i, Cert.Spec.IsReal (h i)) :
    ∀ i, Cert.Spec.IsReal (aggKv256 sv dv h i) := by
  intro i
  unfold aggKv256
  have hx : ∀ i, Cert.Spec.IsReal ((broadcastInDim S50000x256 ![] bcast_S_S50000x256 (constant (F := Ideal) S_ .f32 0x00000000#32)) i) :=
    fun i => by rw [bcast_zero bcast_S_S50000x256 i]; exact Cert.Spec.IsReal.zero
  have hu : ∀ j, Cert.Spec.IsReal ((Host.gather gather_S50000x256_S800000x1_S800000x256_1_0_n_n_0_1_1256 h (broadcastInDim S800000x1 ![0] bcast_S800000_S800000x1_0 (select (cmpi .slt sv (broadcastInDim S800000 ![] bcast_S_S800000 (constantI S_ 32 0#32))) (addi sv (broadcastInDim S800000 ![] bcast_S_S800000 (constantI S_ 32 50000#32))) sv))) j) :=
    fun j => gather_real gather_S50000x256_S800000x1_S800000x256_1_0_n_n_0_1_1256 h _ hh j
  exact scatterAdd_real scatter_S50000x256_S800000x1_S800000x256_1_0_0_1 _ _ _ hx hu i

end Cert.KernelIdeal.KVal

end
-- ==== Proof.Ident.lean ====
import proofs.«420935_j80238579024178_3_alg».proof.Proof.HostKDefs
import proofs.«420935_j80238579024178_3_alg».proof.Proof.RefVal

noncomputable section

namespace Cert.Ident

open Idealize.ShloMosaic

theorem D_eq (x1 : IVec Cert.KernelIdeal.S2x800000 32) :
    Cert.KernelIdeal.KVal.DK x1 = Cert.ReferenceIdeal.RefVal.DR x1 := rfl

theorem agg128_eq (x1 : IVec Cert.KernelIdeal.S2x800000 32) :
    Cert.KernelIdeal.KVal.aggK128 x1 = Cert.ReferenceIdeal.RefVal.aggR128 x1 := rfl

theorem agg256_eq (x1 : IVec Cert.KernelIdeal.S2x800000 32) :
    Cert.KernelIdeal.KVal.aggK256 x1 = Cert.ReferenceIdeal.RefVal.aggR256 x1 := rfl

end Cert.Ident

end
-- ==== Proof.Bridge.lean ====
import proofs.«420935_j80238579024178_3_alg».proof.Defs
import proofs.«420935_j80238579024178_3_alg».proof.Proof.RefVal
import proofs.«420935_j80238579024178_3_alg».proof.Proof.PreReal
import proofs.«420935_j80238579024178_3_alg».proof.Proof.Chain
import proofs.«420935_j80238579024178_3_alg».proof.Proof.FrRun
import proofs.«420935_j80238579024178_3_alg».proof.Proof.KVal
import proofs.«420935_j80238579024178_3_alg».proof.Proof.HostKFacts
import proofs.«420935_j80238579024178_3_alg».proof.Proof.Ident

noncomputable section

namespace Cert.Bridge

open Idealize.ShloMosaic Idealize.ShloMosaic.TcCoe Idealize.SL.Sem Idealize.ShloMosaic.ValueIdx
open Cert.Spec Cert.KernelIdeal.KVal Cert.ReferenceIdeal.RefVal

variable [Cert.Pre_finite_inputs.Facts]

theorem val_eq (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S50000, .i32⟩ : BufTy).Contents (Elt Ideal))
    (x3 x4 : (⟨Cert.ReferenceIdeal.S128x256, .f32⟩ : BufTy).Contents (Elt Ideal))
    (x5 : (⟨Cert.ReferenceIdeal.S256, .f32⟩ : BufTy).Contents (Elt Ideal))
    (x6 x7 : (⟨Cert.ReferenceIdeal.S4x256x256, .f32⟩ : BufTy).Contents (Elt Ideal))
    (x8 : (⟨Cert.ReferenceIdeal.S4x256, .f32⟩ : BufTy).Contents (Elt Ideal))
    (x9 : (⟨Cert.ReferenceIdeal.S256x10, .f32⟩ : BufTy).Contents (Elt Ideal))
    (x10 : (⟨Cert.ReferenceIdeal.S10, .f32⟩ : BufTy).Contents (Elt Ideal))
    (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (h9 : ∀ i, IsReal (x9 i))
    (h10 : ∀ i, IsReal (x10 i)) :
    Cert.ReferenceIdeal.Read.val_main_v174 (F := Ideal) x0 x1 x2 x3 x4 x5 x6 x7 x8 x9 x10
      = netK (aggK128 x1) (aggK256 x1) (invK x1) (fun n => x2 (ix1 n)) x0 x3 x4 x5 x6 x7 x8 x9 x10 := by
  have hD : ∀ n : Fin 50000, ∃ r : ℝ, r ≠ 0 ∧ DK x1 (ix1 n) = (r : EReal)
      ∧ invK x1 (ix2 n 0) = Ideal.div 1 (DK x1 (ix1 n)) := fun n => by
    obtain ⟨r, hr, h⟩ := DK_real x1 n
    exact ⟨r, hr, h, invK_eq x1 n⟩
  have e := net_eq (aggK128 x1) (aggK256 x1) (invK x1) (DK x1) (fun n => x2 (ix1 n)) x0 x3 x4 x5 x6 x7 x8 x9 x10 hD
    (fun h hh => aggKv128_real (srcv x1) (dstv x1) h hh) (fun h hh => aggKv256_real (srcv x1) (dstv x1) h hh)
    h0 h3 h4 h5 h6 h7 h8 h9 h10
  rw [e, Cert.Ident.agg128_eq, Cert.Ident.agg256_eq, Cert.Ident.D_eq]
  exact ref_val x0 x1 x2 x3 x4 x5 x6 x7 x8 x9 x10

theorem out_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hp : Cert.Pre_KernelIdeal m)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_out0 m' c
      = Cert.KernelIdeal.Fr.W10 m ρ c (Proc.devRef .tc Cert.KernelIdeal.main_v96) := by
  obtain ⟨e0, e1, e2, e3, e4, e5, e6, e7, e8, e9, e10⟩ := hagree
  obtain ⟨r0, r3, r4, r5, r6, r7, r8, r9, r10⟩ := Cert.PreReal.real_of_pre _ _ _ _ _ _ _ _ _ _ _ (hp c)
  refine ((Cert.ReferenceIdeal.Read.val_main_v174_eq m' c).trans ?_).trans (kernel_val m ρ c).symm
  rw [e0, e1, e2, e3, e4, e5, e6, e7, e8, e9, e10]
  exact val_eq _ _ _ _ _ _ _ _ _ _ _ r0 r3 r4 r5 r6 r7 r8 r9 r10

end Cert.Bridge

end
-- ==== Proof.lean ====
import proofs.«420935_j80238579024178_3_alg».proof.Defs
import proofs.«420935_j80238579024178_3_alg».proof.Proof.Gen.Kernel
import proofs.«420935_j80238579024178_3_alg».proof.Proof.Gen.KernelIdeal
import proofs.«420935_j80238579024178_3_alg».proof.Proof.Gen.ReferenceIdeal
import proofs.«420935_j80238579024178_3_alg».proof.Proof.Gen.Pre_finite_inputs
import Idealize.ShloMosaic.Adequacy
import Idealize.ShloMosaic.Init
import proofs.«420935_j80238579024178_3_alg».proof.Proof.FrRun
import proofs.«420935_j80238579024178_3_alg».proof.Proof.Bridge

open Lean Meta Elab Term Command in
/-- `name : claim := f` is proved by `fun m ρ _ => f m ρ`; that this has the claimed type is a definitional equality. -/
elab "theorem_up_to_unfolding " n:ident " : " ty:term " := " f:term : command => liftTermElabM do
  let ty ← instantiateMVars (← elabType ty)
  let f ← instantiateMVars (← elabTermAndSynthesize f none)
  let some ty' ← unfoldDefinition? ty | throwError "the claim is not a definition"
  let val ← forallBoundedTelescope ty' (some 3) fun xs _ => mkLambdaFVars xs (mkApp2 f xs[0]! xs[1]!)
  addDecl (.thmDecl { name := n.getId, levelParams := [], type := ty, value := val })

noncomputable section

open Idealize.ShloMosaic Idealize.SL.Sem

namespace Cert.KernelIdeal.Fr

open Cert.KernelIdeal Idealize.ShloMosaic.TcCoe

variable {F : FTy → Type} [FloatOps F] (m : (ℓ : Loc nD τ sig) → Buf (Elt F) ℓ) (ρ : Dev nD → PrngReg)

/-- At every float model the program runs from any memory and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run m ρ)

end Cert.KernelIdeal.Fr

namespace Cert.Proof

-- No operation was rewritten, so the program as printed and its idealization are one term: the frame at machine words is the same lemma.
theorem_up_to_unfolding Cert.Proof.frame_k : Cert.frame_Kernel := @Cert.KernelIdeal.Fr.frame Bits _

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the reference's result is the kernel's last contents of its result array. -/
theorem algebraic : Cert.algebraic_KernelIdeal_ReferenceIdeal := by
  intro m ρ m' ρ' hp hagree
  refine ⟨fun c => Cert.KernelIdeal.Fr.W10 m ρ c (Proc.devRef .tc Cert.KernelIdeal.main_v96),
    Cert.KernelIdeal.Fr.run (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Bridge.out_eq m ρ m' c hp (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
